-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x600000 : Shape := ⟨2, ![2, 600000]⟩
abbrev S128x128 : Shape := ⟨2, ![128, 128]⟩
abbrev S6x128x128 : Shape := ⟨3, ![6, 128, 128]⟩
abbrev S6x128 : Shape := ⟨2, ![6, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg0 : IVec S100000 32) (main_arg7 : FVec F S6x128 .f32) (main_v13 : IVec S_ 1) (main_v16 : IVec S6x128x128 1) : IVec S_ 1 :=
  let main_c_5 : IVec S_ 1 := constantI S_ 1 1#1
  let main_v17 : IVec S_ 1 := (fun x v => Host.reduce IntOp.andi x v reducesTo_S6x128x128_S_d0_1_2 h_S_) main_v16 main_c_5
  let main_v18 : IVec S_ 1 := andi main_v13 main_v17
  let main_v19 : FVec F S6x128 .f32 := Host.absf main_arg7
  let main_cst_6 : FVec F S_ .f32 := constant S_ .f32 0x7F800000#32
  let main_v20 : FVec F S6x128 .f32 := broadcastInDim S6x128 ![] bcast_S_S6x128 main_cst_6
  let main_v21 : IVec S6x128 1 := cmpf .olt main_v19 main_v20
  let main_c_7 : IVec S_ 1 := constantI S_ 1 1#1
  let main_v22 : IVec S_ 1 := (fun x v => Host.reduce IntOp.andi x v reducesTo_S6x128_S_d0_1 h_S_) main_v21 main_c_7
  let main_v23 : IVec S_ 1 := andi main_v18 main_v22
  let main_c_8 : IVec S_ 32 := constantI S_ 32 0#32
  let main_v24 : IVec S100000 32 := broadcastInDim S100000 ![] bcast_S_S100000 main_c_8
  let main_v25 : IVec S100000 1 := cmpi .sge main_arg0 main_v24
  let main_c_9 : IVec S_ 1 := constantI S_ 1 1#1
  let main_v26 : IVec S_ 1 := (fun x v => Host.reduce IntOp.andi x v reducesTo_S100000_S_d0 h_S_) main_v25 main_c_9
  let main_v27 : IVec S_ 1 := andi main_v23 main_v26
  let main_c_10 : IVec S_ 32 := constantI S_ 32 128#32
  let main_v28 : IVec S100000 32 := broadcastInDim S100000 ![] bcast_S_S100000 main_c_10
  let main_v29 : IVec S100000 1 := cmpi .slt main_arg0 main_v28
  let main_c_11 : IVec S_ 1 := constantI S_ 1 1#1
  let main_v30 : IVec S_ 1 := (fun x v => Host.reduce IntOp.andi x v reducesTo_S100000_S_d0 h_S_) main_v29 main_c_11
  let main_v31 : IVec S_ 1 := andi main_v27 main_v30
  main_v31

def fn {F : FTy → Type} [FloatOps F] (main_arg0 : IVec S100000 32) (main_arg1 : IVec S2x600000 32) (main_arg2 : IVec S100000 32) (main_arg3 : FVec F S128x128 .f32) (main_arg4 : FVec F S6x128x128 .f32) (main_arg5 : FVec F S6x128 .f32) (main_arg6 : FVec F S6x128x128 .f32) (main_arg7 : FVec F S6x128 .f32) : IVec S_ 1 :=
  let main_v0 : FVec F S128x128 .f32 := Host.absf main_arg3
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S6x128x128 .f32 := Host.absf main_arg4
  let main_cst_0 : FVec F S_ .f32 := constant S_ .f32 0x7F800000#32
  let main_v5 : FVec F S6x128x128 .f32 := broadcastInDim S6x128x128 ![] bcast_S_S6x128x128 main_cst_0
  let main_v6 : IVec S6x128x128 1 := cmpf .olt main_v4 main_v5
  let main_c_1 : IVec S_ 1 := constantI S_ 1 1#1
  let main_v7 : IVec S_ 1 := (fun x v => Host.reduce IntOp.andi x v reducesTo_S6x128x128_S_d0_1_2 h_S_) main_v6 main_c_1
  let main_v8 : IVec S_ 1 := andi main_v3 main_v7
  let main_v9 : FVec F S6x128 .f32 := Host.absf main_arg5
  let main_cst_2 : FVec F S_ .f32 := constant S_ .f32 0x7F800000#32
  let main_v10 : FVec F S6x128 .f32 := broadcastInDim S6x128 ![] bcast_S_S6x128 main_cst_2
  let main_v11 : IVec S6x128 1 := cmpf .olt main_v9 main_v10
  let main_c_3 : IVec S_ 1 := constantI S_ 1 1#1
  let main_v12 : IVec S_ 1 := (fun x v => Host.reduce IntOp.andi x v reducesTo_S6x128_S_d0_1 h_S_) main_v11 main_c_3
  let main_v13 : IVec S_ 1 := andi main_v8 main_v12
  let main_v14 : FVec F S6x128x128 .f32 := Host.absf main_arg6
  let main_cst_4 : FVec F S_ .f32 := constant S_ .f32 0x7F800000#32
  let main_v15 : FVec F S6x128x128 .f32 := broadcastInDim S6x128x128 ![] bcast_S_S6x128x128 main_cst_4
  let main_v16 : IVec S6x128x128 1 := cmpf .olt main_v14 main_v15
  fn_part1 (F := F) main_arg0 main_arg7 main_v13 main_v16
-- ==== Kernel.lean ====
abbrev S100000 : Shape := ⟨1, ![100000]⟩
abbrev S2x600000 : Shape := ⟨2, ![2, 600000]⟩
abbrev S128x128 : Shape := ⟨2, ![128, 128]⟩
abbrev S6x128x128 : Shape := ⟨3, ![6, 128, 128]⟩
abbrev S6x128 : Shape := ⟨2, ![6, 128]⟩
abbrev S100000x1 : Shape := ⟨2, ![100000, 1]⟩
abbrev S100000x128 : Shape := ⟨2, ![100000, 128]⟩
abbrev S2000x1 : Shape := ⟨2, ![2000, 1]⟩
abbrev S2000x128 : Shape := ⟨2, ![2000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S1x128 : Shape := ⟨2, ![1, 128]⟩
abbrev S128 : Shape := ⟨1, ![128]⟩
abbrev S2048x128 : Shape := ⟨2, ![2048, 128]⟩
abbrev S2048x1 : Shape := ⟨2, ![2048, 1]⟩
abbrev S1000x128 : Shape := ⟨2, ![1000, 128]⟩
abbrev S1000x1 : Shape := ⟨2, ![1000, 1]⟩
abbrev S1000x2048 : Shape := ⟨2, ![1000, 2048]⟩

abbrev nBuf : Space → Nat
  | .hbm => 168
  | .vmem => 73
  | .smem => 0
  | _ => 0

abbrev hbmTy0_0 (i : Nat) : BufTy := match i % 128 with
  | 0 => ⟨S100000, .i32⟩
  | 1 => ⟨S2x600000, .i32⟩
  | 2 => ⟨S100000, .i32⟩
  | 3 => ⟨S128x128, .f32⟩
  | 4 => ⟨S6x128x128, .f32⟩
  | 5 => ⟨S6x128, .f32⟩
  | 6 => ⟨S6x128x128, .f32⟩
  | 7 => ⟨S6x128, .f32⟩
  | 8 => ⟨S100000x1, .i32⟩
  | 9 => ⟨S100000x128, .f32⟩
  | 10 => ⟨S1x600000, .i32⟩
  | 11 => ⟨S600000, .i32⟩
  | 12 => ⟨S1x600000, .i32⟩
  | 13 => ⟨S600000, .i32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S_, .f32⟩
  | 24 => ⟨S100000x128, .f32⟩
  | 25 => ⟨S600000x1, .i32⟩
  | 26 => ⟨S100000x128, .f32⟩
  | 27 => ⟨S1x128x128, .f32⟩
  | 28 => ⟨S128x128, .f32⟩
  | 29 => ⟨S1x128, .f32⟩
  | 30 => ⟨S128, .f32⟩
  | 31 => ⟨S1x128x128, .f32⟩
  | 32 => ⟨S128x128, .f32⟩
  | 33 => ⟨S1x128, .f32⟩
  | 34 => ⟨S128, .f32⟩
  | 35 => ⟨S1x128, .f32⟩
  | 36 => ⟨S1x128, .f32⟩
  | 37 => ⟨S100000x128, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S_, .f32⟩
  | 48 => ⟨S100000x128, .f32⟩
  | 49 => ⟨S600000x1, .i32⟩
  | 50 => ⟨S100000x128, .f32⟩
  | 51 => ⟨S1x128x128, .f32⟩
  | 52 => ⟨S128x128, .f32⟩
  | 53 => ⟨S1x128, .f32⟩
  | 54 => ⟨S128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S1x128, .f32⟩
  | 61 => ⟨S100000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S_, .f32⟩
  | 72 => ⟨S100000x128, .f32⟩
  | 73 => ⟨S600000x1, .i32⟩
  | 74 => ⟨S100000x128, .f32⟩
  | 75 => ⟨S1x128x128, .f32⟩
  | 76 => ⟨S128x128, .f32⟩
  | 77 => ⟨S1x128, .f32⟩
  | 78 => ⟨S128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S1x128, .f32⟩
  | 85 => ⟨S100000x128, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S600000x128, .f32⟩
  | 95 => ⟨S_, .f32⟩
  | 96 => ⟨S100000x128, .f32⟩
  | 97 => ⟨S600000x1, .i32⟩
  | 98 => ⟨S100000x128, .f32⟩
  | 99 => ⟨S1x128x128, .f32⟩
  | 100 => ⟨S128x128, .f32⟩
  | 101 => ⟨S1x128, .f32⟩
  | 102 => ⟨S128, .f32⟩
  | 103 => ⟨S1x128x128, .f32⟩
  | 104 => ⟨S128x128, .f32⟩
  | 105 => ⟨S1x128, .f32⟩
  | 106 => ⟨S128, .f32⟩
  | 107 => ⟨S1x128, .f32⟩
  | 108 => ⟨S1x128, .f32⟩
  | 109 => ⟨S100000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S_, .f32⟩
  | 120 => ⟨S100000x128, .f32⟩
  | 121 => ⟨S600000x1, .i32⟩
  | 122 => ⟨S100000x128, .f32⟩
  | 123 => ⟨S1x128x128, .f32⟩
  | 124 => ⟨S128x128, .f32⟩
  | 125 => ⟨S1x128, .f32⟩
  | 126 => ⟨S128, .f32⟩
  | 127 => ⟨S1x128x128, .f32⟩
  | _ => ⟨S100000, .i32⟩

abbrev hbmTy0_1 (i : Nat) : BufTy := match i % 128 with
  | 0 => ⟨S128x128, .f32⟩
  | 1 => ⟨S1x128, .f32⟩
  | 2 => ⟨S128, .f32⟩
  | 3 => ⟨S1x128, .f32⟩
  | 4 => ⟨S1x128, .f32⟩
  | 5 => ⟨S100000x128, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .f32⟩
  | 15 => ⟨S_, .f32⟩
  | 16 => ⟨S100000x128, .f32⟩
  | 17 => ⟨S600000x1, .i32⟩
  | 18 => ⟨S100000x128, .f32⟩
  | 19 => ⟨S1x128x128, .f32⟩
  | 20 => ⟨S128x128, .f32⟩
  | 21 => ⟨S1x128, .f32⟩
  | 22 => ⟨S128, .f32⟩
  | 23 => ⟨S1x128x128, .f32⟩
  | 24 => ⟨S128x128, .f32⟩
  | 25 => ⟨S1x128, .f32⟩
  | 26 => ⟨S128, .f32⟩
  | 27 => ⟨S1x128, .f32⟩
  | 28 => ⟨S1x128, .f32⟩
  | 29 => ⟨S100000x128, .f32⟩
  | 30 => ⟨S100000x1, .i32⟩
  | 31 => ⟨S2048x128, .f32⟩
  | 32 => ⟨S2048x1, .f32⟩
  | 33 => ⟨S2000x128, .f32⟩
  | 34 => ⟨S2000x1, .f32⟩
  | 35 => ⟨S_, .f32⟩
  | 36 => ⟨S2000x1, .f32⟩
  | 37 => ⟨S2000x1, .f32⟩
  | 38 => ⟨S2000x128, .f32⟩
  | 39 => ⟨S2000x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S2000x1, .i32⟩
  | .local _ .vmem, ⟨1, _⟩ => ⟨S2000x1, .i32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S1x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S128x128, .f32⟩
  | .local _ .vmem, ⟨50, _⟩ => ⟨S1x128, .f32⟩
  | .local _ .vmem, ⟨51, _⟩ => ⟨S128x128, .f32⟩
  | .local _ .vmem, ⟨52, _⟩ => ⟨S1x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S128x128, .f32⟩
  | .local _ .vmem, ⟨60, _⟩ => ⟨S1x128, .f32⟩
  | .local _ .vmem, ⟨61, _⟩ => ⟨S128x128, .f32⟩
  | .local _ .vmem, ⟨62, _⟩ => ⟨S1x128, .f32⟩
  | .local _ .vmem, ⟨63, _⟩ => ⟨S2000x128, .f32⟩
  | .local _ .vmem, ⟨64, _⟩ => ⟨S2000x128, .f32⟩
  | .local _ .vmem, ⟨65, _⟩ => ⟨S1000x128, .f32⟩
  | .local _ .vmem, ⟨66, _⟩ => ⟨S1000x128, .f32⟩
  | .local _ .vmem, ⟨67, _⟩ => ⟨S1000x1, .i32⟩
  | .local _ .vmem, ⟨68, _⟩ => ⟨S1000x1, .i32⟩
  | .local _ .vmem, ⟨69, _⟩ => ⟨S2048x128, .f32⟩
  | .local _ .vmem, ⟨70, _⟩ => ⟨S2048x1, .f32⟩
  | .local _ .vmem, ⟨71, _⟩ => ⟨S2048x128, .f32⟩
  | .local _ .vmem, ⟨72, _⟩ => ⟨S2048x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_1 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_4 : Ref sig .tc := ⟨.hbm, 62, rfl⟩
abbrev main_v48 : Ref sig .tc := ⟨.hbm, 63, rfl⟩
abbrev main_v49 : Ref sig .tc := ⟨.hbm, 64, rfl⟩
abbrev main_c_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c_7 : Ref sig .tc := ⟨.hbm, 86, rfl⟩
abbrev main_v69 : Ref sig .tc := ⟨.hbm, 87, rfl⟩
abbrev main_v70 : Ref sig .tc := ⟨.hbm, 88, rfl⟩
abbrev main_c_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_c_10 : Ref sig .tc := ⟨.hbm, 110, rfl⟩
abbrev main_v90 : Ref sig .tc := ⟨.hbm, 111, rfl⟩
abbrev main_v91 : Ref sig .tc := ⟨.hbm, 112, rfl⟩
abbrev main_c_11 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_12 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_c_13 : Ref sig .tc := ⟨.hbm, 134, rfl⟩
abbrev main_v111 : Ref sig .tc := ⟨.hbm, 135, rfl⟩
abbrev main_v112 : Ref sig .tc := ⟨.hbm, 136, rfl⟩
abbrev main_c_14 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_15 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133_0 : Ref sig .tc := ⟨.hbm, 159, rfl⟩
abbrev main_v133_1 : Ref sig .tc := ⟨.hbm, 160, rfl⟩
abbrev main_v134 : Ref sig .tc := ⟨.hbm, 161, rfl⟩
abbrev main_v135 : Ref sig .tc := ⟨.hbm, 162, rfl⟩
abbrev main_cst_16 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg6_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg6_1 : Ref sig .tc := ⟨.vmem, 54, rfl⟩
abbrev cc6_stg0_0 : Ref sig .tc := ⟨.vmem, 55, rfl⟩
abbrev cc6_stg0_1 : Ref sig .tc := ⟨.vmem, 56, rfl⟩
abbrev cc6_stg1_0 : Ref sig .tc := ⟨.vmem, 57, rfl⟩
abbrev cc6_stg1_1 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg5_0 : Ref sig .tc := ⟨.vmem, 62, rfl⟩
abbrev cc6_stg6_0 : Ref sig .tc := ⟨.vmem, 63, rfl⟩
abbrev cc6_stg6_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg1_1 : Ref sig .tc := ⟨.vmem, 68, rfl⟩
abbrev cc7_stg2_0 : Ref sig .tc := ⟨.vmem, 69, rfl⟩
abbrev cc7_stg3_0 : Ref sig .tc := ⟨.vmem, 70, rfl⟩
abbrev cc7_scratch0 : Ref sig .tc := ⟨.vmem, 71, rfl⟩
abbrev cc7_scratch1 : Ref sig .tc := ⟨.vmem, 72, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem6_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem6_1 : DmaSem sig := 54
abbrev cc6_sem0_0 : DmaSem sig := 55
abbrev cc6_sem0_1 : DmaSem sig := 56
abbrev cc6_sem1_0 : DmaSem sig := 57
abbrev cc6_sem1_1 : DmaSem sig := 58
abbrev cc6_sem2_0 : DmaSem sig := 59
abbrev cc6_sem3_0 : DmaSem sig := 60
abbrev cc6_sem4_0 : DmaSem sig := 61
abbrev cc6_sem5_0 : DmaSem sig := 62
abbrev cc6_sem6_0 : DmaSem sig := 63
abbrev cc6_sem6_1 : DmaSem sig := 64
abbrev cc7_sem0_0 : DmaSem sig := 65
abbrev cc7_sem0_1 : DmaSem sig := 66
abbrev cc7_sem1_0 : DmaSem sig := 67
abbrev cc7_sem1_1 : DmaSem sig := 68
abbrev cc7_sem2_0 : DmaSem sig := 69
abbrev cc7_sem3_0 : DmaSem sig := 70

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S2048x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2048x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  shapeCasts_S100000_S100000x1 : S100000.ShapeCasts S100000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  broadcasts_S2000x1_S2000x128 : S2000x1.Broadcasts S2000x128
  natLt_1_32 : 1 < 32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  shapeCasts_S128_S1x128 : S128.ShapeCasts S1x128
  shapeCasts_S2000x128_S2000x128 : S2000x128.ShapeCasts S2000x128
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x2048_d1_w32 : S1000x2048.Iotas .tc 32 [1]
  broadcasts_S1000x1_S1000x2048 : S1000x1.Broadcasts S1000x2048
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  slices_S2048x128_S2000x128_0_0 : S2048x128.Slices ![0, 0] S2000x128
  slices_S2048x1_S2000x1_0_0 : S2048x1.Slices ![0, 0] S2000x1
  bcast_S_S2000x1 : S_.BroadcastsInDim S2000x1 (![] : Fin 0 → Fin S2000x1.rank)
  bcast_S2000x1_S2000x128_0_1 : S2000x1.BroadcastsInDim S2000x128 (![0, 1] : Fin 2 → Fin S2000x128.rank)
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S1000x2048_S1000x128_S2048x128_0_0_1_1_n_n_wf : DotDims.WF S1000x2048 S1000x128 S2048x128 [0] [0] [1] [1] [] []
  dot_S1000x2048_S1000x1_S2048x1_0_0_1_1_n_n_wf : DotDims.WF S1000x2048 S1000x1 S2048x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .i32 = 32 ∨ (Rect.block (s := S100000x1) S2000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S100000x128.size a
  hwx5_6 : ∀ i : grid5.Coords, EltTy.bits .f32 = 32 ∨ (Rect.block (s := S100000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S100000x128.size a
  hwx6_1 : ∀ i : grid6.Coords, EltTy.bits .f32 = 32 ∨ (Rect.block (s := S100000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S100000x128.size a
  hwx6_6 : ∀ i : grid6.Coords, EltTy.bits .f32 = 32 ∨ (Rect.block (s := S100000x128) S2000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S100000x128.size a
  hwx7_0 : ∀ i : grid7.Coords, EltTy.bits .f32 = 32 ∨ (Rect.block (s := S100000x128) S1000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x1.size a ≤ S100000x1.size a
  hwx7_1 : ∀ i : grid7.Coords, EltTy.bits .i32 = 32 ∨ (Rect.block (s := S100000x1) S1000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S2048x128.size a ≤ S2048x128.size a
  hwx7_2 : ∀ i : grid7.Coords, EltTy.bits .f32 = 32 ∨ (Rect.block (s := S2048x128) S2048x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S2048x1.size a ≤ S2048x1.size a
  hwx7_3 : ∀ i : grid7.Coords, EltTy.bits .f32 = 32 ∨ (Rect.block (s := S2048x1) S2048x1.size (cc7_transform_3 i) (hinb7_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S1000x2048_S1000x128_S2048x128_0_0_1_1_n_n : DotDims S1000x2048 S1000x128 S2048x128 where
  lhsContracting := [0]
  rhsContracting := [0]
  lhsNonContracting := [1]
  rhsNonContracting := [1]
  lhsBatch := []
  rhsBatch := []
  wf := dot_S1000x2048_S1000x128_S2048x128_0_0_1_1_n_n_wf
def dot_S1000x2048_S1000x1_S2048x1_0_0_1_1_n_n : DotDims S1000x2048 S1000x1 S2048x1 where
  lhsContracting := [0]
  rhsContracting := [0]
  lhsNonContracting := [1]
  rhsNonContracting := [1]
  lhsBatch := []
  rhsBatch := []
  wf := dot_S1000x2048_S1000x1_S2048x1_0_0_1_1_n_n_wf

abbrev win0_0 : Pipeline.Window sig grid0 :=
  Pipeline.Window.ofSpec (Memref.whole main_v0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v68) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v89) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v89) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v99) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v101) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v108) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v109) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v110) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v110) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v120) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v122) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v129) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v126) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v130) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v131) S2000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v131) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v132) S1000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v133_0) S2048x128.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v133_1) S2048x1.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000 : Shape := ⟨1, ![100000]⟩
abbrev S2x600000 : Shape := ⟨2, ![2, 600000]⟩
abbrev S128x128 : Shape := ⟨2, ![128, 128]⟩
abbrev S6x128x128 : Shape := ⟨3, ![6, 128, 128]⟩
abbrev S6x128 : Shape := ⟨2, ![6, 128]⟩
abbrev S1x600000 : Shape := ⟨2, ![1, 600000]⟩
abbrev S600000 : Shape := ⟨1, ![600000]⟩
abbrev S_ : Shape := ⟨0, ![]⟩
abbrev S100000x1 : Shape := ⟨2, ![100000, 1]⟩
abbrev S100000x128 : Shape := ⟨2, ![100000, 128]⟩
abbrev S600000x1 : Shape := ⟨2, ![600000, 1]⟩
abbrev S600000x128 : Shape := ⟨2, ![600000, 128]⟩
abbrev S1x128x128 : Shape := ⟨3, ![1, 128, 128]⟩
abbrev S1x128 : Shape := ⟨2, ![1, 128]⟩
abbrev S128 : Shape := ⟨1, ![128]⟩
abbrev S2000x128 : Shape := ⟨2, ![2000, 128]⟩
abbrev S2000 : Shape := ⟨1, ![2000]⟩
abbrev S2000x1 : Shape := ⟨2, ![2000, 1]⟩

abbrev nBuf : Space → Nat
  | .hbm => 253
  | .vmem => 0
  | .smem => 0
  | _ => 0

abbrev hbmTy0_0 (i : Nat) : BufTy := match i % 128 with
  | 0 => ⟨S100000, .i32⟩
  | 1 => ⟨S2x600000, .i32⟩
  | 2 => ⟨S100000, .i32⟩
  | 3 => ⟨S128x128, .f32⟩
  | 4 => ⟨S6x128x128, .f32⟩
  | 5 => ⟨S6x128, .f32⟩
  | 6 => ⟨S6x128x128, .f32⟩
  | 7 => ⟨S6x128, .f32⟩
  | 8 => ⟨S1x600000, .i32⟩
  | 9 => ⟨S600000, .i32⟩
  | 10 => ⟨S1x600000, .i32⟩
  | 11 => ⟨S600000, .i32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S_, .f32⟩
  | 31 => ⟨S100000x128, .f32⟩
  | 32 => ⟨S600000x1, .i32⟩
  | 33 => ⟨S100000x128, .f32⟩
  | 34 => ⟨S100000x128, .f32⟩
  | 35 => ⟨S1x128x128, .f32⟩
  | 36 => ⟨S128x128, .f32⟩
  | 37 => ⟨S100000x128, .f32⟩
  | 38 => ⟨S1x128, .f32⟩
  | 39 => ⟨S128, .f32⟩
  | 40 => ⟨S1x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S1x128x128, .f32⟩
  | 47 => ⟨S128x128, .f32⟩
  | 48 => ⟨S100000x128, .f32⟩
  | 49 => ⟨S1x128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S_, .f32⟩
  | 67 => ⟨S100000x128, .f32⟩
  | 68 => ⟨S600000x1, .i32⟩
  | 69 => ⟨S100000x128, .f32⟩
  | 70 => ⟨S100000x128, .f32⟩
  | 71 => ⟨S1x128x128, .f32⟩
  | 72 => ⟨S128x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S1x128x128, .f32⟩
  | 83 => ⟨S128x128, .f32⟩
  | 84 => ⟨S100000x128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000x128, .f32⟩
  | 102 => ⟨S_, .f32⟩
  | 103 => ⟨S100000x128, .f32⟩
  | 104 => ⟨S600000x1, .i32⟩
  | 105 => ⟨S100000x128, .f32⟩
  | 106 => ⟨S100000x128, .f32⟩
  | 107 => ⟨S1x128x128, .f32⟩
  | 108 => ⟨S128x128, .f32⟩
  | 109 => ⟨S100000x128, .f32⟩
  | 110 => ⟨S1x128, .f32⟩
  | 111 => ⟨S128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S1x128x128, .f32⟩
  | 119 => ⟨S128x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000, .i32⟩

abbrev hbmTy0_1 (i : Nat) : BufTy := match i % 128 with
  | 0 => ⟨S100000x128, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S600000x128, .f32⟩
  | 10 => ⟨S_, .f32⟩
  | 11 => ⟨S100000x128, .f32⟩
  | 12 => ⟨S600000x1, .i32⟩
  | 13 => ⟨S100000x128, .f32⟩
  | 14 => ⟨S100000x128, .f32⟩
  | 15 => ⟨S1x128x128, .f32⟩
  | 16 => ⟨S128x128, .f32⟩
  | 17 => ⟨S100000x128, .f32⟩
  | 18 => ⟨S1x128, .f32⟩
  | 19 => ⟨S128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S1x128x128, .f32⟩
  | 27 => ⟨S128x128, .f32⟩
  | 28 => ⟨S100000x128, .f32⟩
  | 29 => ⟨S1x128, .f32⟩
  | 30 => ⟨S128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x128, .f32⟩
  | 46 => ⟨S_, .f32⟩
  | 47 => ⟨S100000x128, .f32⟩
  | 48 => ⟨S600000x1, .i32⟩
  | 49 => ⟨S100000x128, .f32⟩
  | 50 => ⟨S100000x128, .f32⟩
  | 51 => ⟨S1x128x128, .f32⟩
  | 52 => ⟨S128x128, .f32⟩
  | 53 => ⟨S100000x128, .f32⟩
  | 54 => ⟨S1x128, .f32⟩
  | 55 => ⟨S128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S1x128x128, .f32⟩
  | 63 => ⟨S128x128, .f32⟩
  | 64 => ⟨S100000x128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x128, .f32⟩
  | 82 => ⟨S_, .f32⟩
  | 83 => ⟨S100000x128, .f32⟩
  | 84 => ⟨S600000x1, .i32⟩
  | 85 => ⟨S100000x128, .f32⟩
  | 86 => ⟨S100000x128, .f32⟩
  | 87 => ⟨S1x128x128, .f32⟩
  | 88 => ⟨S128x128, .f32⟩
  | 89 => ⟨S100000x128, .f32⟩
  | 90 => ⟨S1x128, .f32⟩
  | 91 => ⟨S128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S1x128x128, .f32⟩
  | 99 => ⟨S128x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S_, .f32⟩
  | 110 => ⟨S2000x128, .f32⟩
  | 111 => ⟨S100000x1, .i32⟩
  | 112 => ⟨S2000x128, .f32⟩
  | 113 => ⟨S_, .f32⟩
  | 114 => ⟨S100000, .f32⟩
  | 115 => ⟨S_, .f32⟩
  | 116 => ⟨S2000, .f32⟩
  | 117 => ⟨S100000x1, .i32⟩
  | 118 => ⟨S2000, .f32⟩
  | 119 => ⟨S_, .f32⟩
  | 120 => ⟨S2000, .f32⟩
  | 121 => ⟨S2000, .f32⟩
  | 122 => ⟨S2000x1, .f32⟩
  | 123 => ⟨S2000x128, .f32⟩
  | 124 => ⟨S2000x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_cst : Ref sig .tc := ⟨.hbm, 43, rfl⟩
abbrev main_call0_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_v39 : Ref sig .tc := ⟨.hbm, 56, rfl⟩
abbrev main_c_3 : Ref sig .tc := ⟨.hbm, 57, rfl⟩
abbrev main_v40 : Ref sig .tc := ⟨.hbm, 58, rfl⟩
abbrev main_v41 : Ref sig .tc := ⟨.hbm, 59, rfl⟩
abbrev main_c_4 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_call2_cst : Ref sig .tc := ⟨.hbm, 79, rfl⟩
abbrev main_call2_v0 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call3_cst : Ref sig .tc := ⟨.hbm, 90, rfl⟩
abbrev main_call3_v0 : Ref sig .tc := ⟨.hbm, 91, rfl⟩
abbrev main_v68 : Ref sig .tc := ⟨.hbm, 92, rfl⟩
abbrev main_c_6 : Ref sig .tc := ⟨.hbm, 93, rfl⟩
abbrev main_v69 : Ref sig .tc := ⟨.hbm, 94, rfl⟩
abbrev main_v70 : Ref sig .tc := ⟨.hbm, 95, rfl⟩
abbrev main_c_7 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_8 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_call4_cst : Ref sig .tc := ⟨.hbm, 115, rfl⟩
abbrev main_call4_v0 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_call5_cst : Ref sig .tc := ⟨.hbm, 126, rfl⟩
abbrev main_call5_v0 : Ref sig .tc := ⟨.hbm, 127, rfl⟩
abbrev main_v97 : Ref sig .tc := ⟨.hbm, 128, rfl⟩
abbrev main_c_9 : Ref sig .tc := ⟨.hbm, 129, rfl⟩
abbrev main_v98 : Ref sig .tc := ⟨.hbm, 130, rfl⟩
abbrev main_v99 : Ref sig .tc := ⟨.hbm, 131, rfl⟩
abbrev main_c_10 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_11 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_call6_cst : Ref sig .tc := ⟨.hbm, 151, rfl⟩
abbrev main_call6_v0 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_call7_cst : Ref sig .tc := ⟨.hbm, 162, rfl⟩
abbrev main_call7_v0 : Ref sig .tc := ⟨.hbm, 163, rfl⟩
abbrev main_v126 : Ref sig .tc := ⟨.hbm, 164, rfl⟩
abbrev main_c_12 : Ref sig .tc := ⟨.hbm, 165, rfl⟩
abbrev main_v127 : Ref sig .tc := ⟨.hbm, 166, rfl⟩
abbrev main_v128 : Ref sig .tc := ⟨.hbm, 167, rfl⟩
abbrev main_c_13 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_14 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_call8_cst : Ref sig .tc := ⟨.hbm, 187, rfl⟩
abbrev main_call8_v0 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_call9_cst : Ref sig .tc := ⟨.hbm, 198, rfl⟩
abbrev main_call9_v0 : Ref sig .tc := ⟨.hbm, 199, rfl⟩
abbrev main_v155 : Ref sig .tc := ⟨.hbm, 200, rfl⟩
abbrev main_c_15 : Ref sig .tc := ⟨.hbm, 201, rfl⟩
abbrev main_v156 : Ref sig .tc := ⟨.hbm, 202, rfl⟩
abbrev main_v157 : Ref sig .tc := ⟨.hbm, 203, rfl⟩
abbrev main_c_16 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_cst_17 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_call10_cst : Ref sig .tc := ⟨.hbm, 223, rfl⟩
abbrev main_call10_v0 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_call11_cst : Ref sig .tc := ⟨.hbm, 234, rfl⟩
abbrev main_call11_v0 : Ref sig .tc := ⟨.hbm, 235, rfl⟩
abbrev main_v184 : Ref sig .tc := ⟨.hbm, 236, rfl⟩
abbrev main_cst_18 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_cst_19 : Ref sig .tc := ⟨.hbm, 241, rfl⟩
abbrev main_v188 : Ref sig .tc := ⟨.hbm, 242, rfl⟩
abbrev main_cst_20 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_cst_21 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S100000_S100000x1_0 : S100000.BroadcastsInDim S100000x1 (![0] : Fin 1 → Fin S100000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  gather_S128x128_S100000x1_S100000x128_1_0_n_n_0_1_1128_wf : GatherDims.WF S128x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  scatter_S2000x128_S100000x1_S100000x128_1_0_0_1_wf : ScatterDims.WF S2000x128 S100000x1 S100000x128 [1] [0] [0] 1
  scatter_S2000_S100000x1_S100000_n_0_0_1_wf : ScatterDims.WF S2000 S100000x1 S100000 [] [0] [0] 1

variable [Facts₀]

def gather_S128x128_S100000x1_S100000x128_1_0_n_n_0_1_1128 : GatherDims S128x128 S100000x1 S100000x128 where
  offsetDims := [1]
  collapsedSliceDims := [0]
  operandBatchingDims := []
  startIndicesBatchingDims := []
  startIndexMap := [0]
  indexVectorDim := 1
  sliceSizes := ![1, 128]
  wf := gather_S128x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf

class Facts : Prop extends Facts₀ where

variable [Facts]
-- ==== Proof.K.Reg0.lean ====
import proofs.«429188_j41669772706622_1_alg».proof.Proof.Gen.Kernel.Launch
import proofs.«429188_j41669772706622_1_alg».proof.Proof.Gen.Kernel.Skeleton
import proofs.«429188_j41669772706622_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x1 := Rect.unit (s := S2000x1) ![0, 0] S2000x1.size inb_S2000x1_S2000x1_0_0
abbrev r0_1 : Rect S128x128 := Rect.unit (s := S128x128) ![0, 0] S128x128.size inb_S128x128_S128x128_0_0
abbrev r0_2 : Rect S2000x128 := Rect.unit (s := S2000x128) ![0, 0] S2000x128.size inb_S2000x128_S2000x128_0_0

def out0_2 (x0 : Vec F S2000x1 .i32) (x1 : Vec F S128x128 .f32) : Vec F S2000x128 .f32 :=
  View.canon [⟨r0_2, k0_pay1 (View.ld x0 r0_0) (View.ld x1 r0_1)⟩]

set_option maxHeartbeats 1000000 in
theorem emb_body (c : Dev nD) {E : Set ℕ} (i : grid0.Coords) (a0 : Memref sig .tc .vmem S2000x1 .i32) (h0 : a0.IsWhole)
    (a1 : Memref sig .tc .vmem S128x128 .f32) (h1 : a1.IsWhole) (a2 : Memref sig .tc .vmem S2000x128 .f32) (h2 : a2.IsWhole)
    {D0 D1 D2 : Type} {b0 : D0 → Vec F S2000x1 .i32} {b1 : D1 → Vec F S128x128 .f32} {b2 : D2 → Vec F S2000x128 .f32}
    {x0 : Vec F S2000x1 .i32} {x1 : Vec F S128x128 .f32} (e0 : ∀ d, b0 d = x0) (e1 : ∀ d, b1 d = x1) (P Q : sProp 𝕄) :
    iprop(P ∗ Q ∗ (∃ d, owns (c : Thread nD τ) a0 fullShare (b0 d)) ∗ (∃ d, owns (c : Thread nD τ) a1 fullShare (b1 d))
        ∗ (∃ d, owns (c : Thread nD τ) a2 fullShare (b2 d)))
      ⊢ wp frame (wpE (defs₀ (F := F)) Variants.none c none) E (cc0__emb_kernel i a0 h0 a1 h1 a2 h2)
          (fun _ => iprop(P ∗ Q ∗ owns (c : Thread nD τ) a0 fullShare x0 ∗ owns (c : Thread nD τ) a1 fullShare x1
            ∗ owns (c : Thread nD τ) a2 fullShare (out0_2 x0 x1))) := by
  simp only [cc0__emb_kernel_eq_skeleton]; unfold cc0__emb_kernel_skel owns
  iintro ⟨HP, HQ, ⟨%d0, %f0, %hf0, H0⟩, ⟨%d1, %f1, %hf1, H1⟩, ⟨%d2, %f2, -, H2⟩⟩
  obtain rfl := hf0.trans (e0 d0)
  obtain rfl := hf1.trans (e1 d1)
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r0_2, _⟩] S2000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [after0_0, after0_1, after0_2]
  show _ ⊢ wp _ _ _ (bodyAt0 t) _
  unfold bodyAt0
  exact emb_body c _ _ _ _ _ _ _ (before0_0 V c t) (before0_1 V c t) _ _

end Cert.Kernel.Hand
-- ==== Proof.K.Mlp.lean ====
import proofs.«429188_j41669772706622_1_alg».proof.Proof.Gen.Kernel.Launch
import proofs.«429188_j41669772706622_1_alg».proof.Proof.Gen.Kernel.Skeleton
import proofs.«429188_j41669772706622_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rX : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

def mlpOut (x0 x1 : Vec F S2000x128 .f32) (x2 : Vec F S128x128 .f32) (x3 : Vec F S1x128 .f32) (x4 : Vec F S128x128 .f32) (x5 : Vec F S1x128 .f32) : Vec F S2000x128 .f32 :=
  View.canon [⟨rX, k1_pay1 (View.ld x0 rX) (View.ld x1 rX) (View.ld x2 rW) (View.ld x3 rB) (View.ld x4 rW) (View.ld x5 rB)⟩]

theorem mlpOut_eq (x0 x1 : Vec F S2000x128 .f32) (x2 : Vec F S128x128 .f32) (x3 : Vec F S1x128 .f32) (x4 : Vec F S128x128 .f32) (x5 : Vec F S1x128 .f32) :
    mlpOut x0 x1 x2 x3 x4 x5 = View.canon [⟨rX, k1_pay1 (View.ld x0 rX) (View.ld x1 rX) (View.ld x2 rW) (View.ld x3 rB) (View.ld x4 rW) (View.ld x5 rB)⟩] := rfl

set_option maxHeartbeats 1000000 in

theorem mlp_body (c : Dev nD) {E : Set ℕ} (i : grid1.Coords) (a0 : Memref sig .tc .vmem S2000x128 .f32) (h0 : a0.IsWhole) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole)
    {D0 D1 D2 D3 D4 D5 D6 : Type} {b0 : D0 → Vec F S2000x128 .f32} {b1 : D1 → Vec F S2000x128 .f32} {b2 : D2 → Vec F S128x128 .f32} {b3 : D3 → Vec F S1x128 .f32} {b4 : D4 → Vec F S128x128 .f32} {b5 : D5 → Vec F S1x128 .f32} {b6 : D6 → Vec F S2000x128 .f32}
    {x0 x1 : Vec F S2000x128 .f32} {x2 : Vec F S128x128 .f32} {x3 : Vec F S1x128 .f32} {x4 : Vec F S128x128 .f32} {x5 : Vec F S1x128 .f32}
    (e0 : ∀ d, b0 d = x0) (e1 : ∀ d, b1 d = x1) (e2 : ∀ d, b2 d = x2) (e3 : ∀ d, b3 d = x3) (e4 : ∀ d, b4 d = x4) (e5 : ∀ d, b5 d = x5) (P Q : sProp 𝕄) :
    iprop(P ∗ Q ∗ (∃ d, owns (c : Thread nD τ) a0 fullShare (b0 d)) ∗ (∃ d, owns (c : Thread nD τ) a1 fullShare (b1 d)) ∗ (∃ d, owns (c : Thread nD τ) a2 fullShare (b2 d)) ∗ (∃ d, owns (c : Thread nD τ) a3 fullShare (b3 d)) ∗ (∃ d, owns (c : Thread nD τ) a4 fullShare (b4 d)) ∗ (∃ d, owns (c : Thread nD τ) a5 fullShare (b5 d)) ∗ (∃ d, owns (c : Thread nD τ) a6 fullShare (b6 d)))
      ⊢ wp frame (wpE (defs₀ (F := F)) Variants.none c none) E (cc1__mlp_kernel i a0 h0 a1 h1 a2 h2 a3 h3 a4 h4 a5 h5 a6 h6)
          (fun _ => iprop(P ∗ Q ∗ owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (mlpOut x0 x1 x2 x3 x4 x5))) := by
  simp only [cc1__mlp_kernel_eq_skeleton]; unfold cc1__mlp_kernel_skel owns
  iintro ⟨HP, HQ, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  obtain rfl := hf0.trans (e0 d0)
  obtain rfl := hf1.trans (e1 d1)
  obtain rfl := hf2.trans (e2 d2)
  obtain rfl := hf3.trans (e3 d3)
  obtain rfl := hf4.trans (e4 d4)
  obtain rfl := hf5.trans (e5 d5)
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled [⟨rX, _⟩] S2000x128.size (by rfl))

theorem mlp_body_at (c : Dev nD) {E : Set ℕ} (prog : Prog (TpuEff nD τ sig (Elt F) Λ₀ .tc) PUnit) {kern : type_of% (cc1__mlp_kernel (F := F))} {i : grid1.Coords} {a0 : Memref sig .tc .vmem S2000x128 .f32} {h0 : a0.IsWhole} {a1 : Memref sig .tc .vmem S2000x128 .f32} {h1 : a1.IsWhole} {a2 : Memref sig .tc .vmem S128x128 .f32} {h2 : a2.IsWhole} {a3 : Memref sig .tc .vmem S1x128 .f32} {h3 : a3.IsWhole} {a4 : Memref sig .tc .vmem S128x128 .f32} {h4 : a4.IsWhole} {a5 : Memref sig .tc .vmem S1x128 .f32} {h5 : a5.IsWhole} {a6 : Memref sig .tc .vmem S2000x128 .f32} {h6 : a6.IsWhole}
    (hp : prog = kern i a0 h0 a1 h1 a2 h2 a3 h3 a4 h4 a5 h5 a6 h6) (hk : kern = cc1__mlp_kernel)
    {D0 D1 D2 D3 D4 D5 D6 : Type} {b0 : D0 → Vec F S2000x128 .f32} {b1 : D1 → Vec F S2000x128 .f32} {b2 : D2 → Vec F S128x128 .f32} {b3 : D3 → Vec F S1x128 .f32} {b4 : D4 → Vec F S128x128 .f32} {b5 : D5 → Vec F S1x128 .f32} {b6 : D6 → Vec F S2000x128 .f32}
    {x0 x1 : Vec F S2000x128 .f32} {x2 : Vec F S128x128 .f32} {x3 : Vec F S1x128 .f32} {x4 : Vec F S128x128 .f32} {x5 : Vec F S1x128 .f32}
    (e0 : ∀ d, b0 d = x0) (e1 : ∀ d, b1 d = x1) (e2 : ∀ d, b2 d = x2) (e3 : ∀ d, b3 d = x3) (e4 : ∀ d, b4 d = x4) (e5 : ∀ d, b5 d = x5) (P Q : sProp 𝕄) :
    iprop(P ∗ Q ∗ (∃ d, owns (c : Thread nD τ) a0 fullShare (b0 d)) ∗ (∃ d, owns (c : Thread nD τ) a1 fullShare (b1 d)) ∗ (∃ d, owns (c : Thread nD τ) a2 fullShare (b2 d)) ∗ (∃ d, owns (c : Thread nD τ) a3 fullShare (b3 d)) ∗ (∃ d, owns (c : Thread nD τ) a4 fullShare (b4 d)) ∗ (∃ d, owns (c : Thread nD τ) a5 fullShare (b5 d)) ∗ (∃ d, owns (c : Thread nD τ) a6 fullShare (b6 d)))
      ⊢ wp frame (wpE (defs₀ (F := F)) Variants.none c none) E prog
          (fun _ => iprop(P ∗ Q ∗ owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (mlpOut x0 x1 x2 x3 x4 x5))) :=
  by subst hk hp; exact mlp_body c i a0 h0 a1 h1 a2 h2 a3 h3 a4 h4 a5 h5 a6 h6 e0 e1 e2 e3 e4 e5 P Q

theorem before_block {cfg : Cfg sig Λ₀} {c : Dev nD} (dat : Dat τ (Elt F) Unit ℕ (UR sig nD τ) ℕ cfg c) (w : Fin cfg.W) (t : Fin cfg.N)
    {x : (cfg.win w).block.Idx → Elt F (cfg.win w).elt}
    (hw : (cfg.win w).isOut = false := by rfl) (hlive : ∀ i, cfg.idle w i = false := by exact fun _ => rfl)
    (hclip : ∀ t t' : Fin cfg.N, (cfg.win w).index t = (cfg.win w).index t' →
      (cfg.win w).clip (cfg.grid.coords t) = (cfg.win w).clip (cfg.grid.coords t') := by exact fun _ _ _ => rfl)
    (hkeep : ∀ t, (cfg.win w).cut (cfg.grid.coords t) (dat.after w t) = dat.blockOf w t := by exact fun _ => rfl)
    (hfill : ∀ d, dat.fetched w t d = x := by exact fun _ => rfl) (d : (cfg.win w).block.Idx → Elt F (cfg.win w).elt) :
    dat.before w t d = x :=
  (dat.before_in_eq_fetched w hw hlive hclip hkeep t d).trans (hfill d)

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => mlpOut (iblk1 V c 0 t) (iblk1 V c 1 t) (iblk1 V c 2 t) (iblk1 V c 3 t) (iblk1 V c 4 t) (iblk1 V c 5 t)
  Φ _ := Pipeline.ΦA spec1 c
  q _ := fullShare
  owed _ := 0

theorem after1_6 (c : Dev nD) (t : Fin cfg1.N) : (dat1 V c).after 6 t =
    mlpOut (iblk1 V c 0 t) (iblk1 V c 1 t) (iblk1 V c 2 t) (iblk1 V c 3 t) (iblk1 V c 4 t) (iblk1 V c 5 t) := by dsimp only [dat1]

theorem body_obligation1 (c : Dev nD) : BodyObligation (dat1 (F := F) V c) (defs₀ (F := F)) Variants.none () Set.univ := fun t => by
  rw [bigSep_W1, bigSep_W1]
  dsimp only [dat1]
  exact mlp_body_at c (bodyAt1 t) (kern := cc1__mlp_kernel) rfl rfl (before_block (dat1 V c) 0 t) (before_block (dat1 V c) 1 t) (before_block (dat1 V c) 2 t) (before_block (dat1 V c) 3 t) (before_block (dat1 V c) 4 t) (before_block (dat1 V c) 5 t) _ _

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => mlpOut (iblk2 V c 0 t) (iblk2 V c 1 t) (iblk2 V c 2 t) (iblk2 V c 3 t) (iblk2 V c 4 t) (iblk2 V c 5 t)
  Φ _ := Pipeline.ΦA spec2 c
  q _ := fullShare
  owed _ := 0

theorem after2_6 (c : Dev nD) (t : Fin cfg2.N) : (dat2 V c).after 6 t =
    mlpOut (iblk2 V c 0 t) (iblk2 V c 1 t) (iblk2 V c 2 t) (iblk2 V c 3 t) (iblk2 V c 4 t) (iblk2 V c 5 t) := by dsimp only [dat2]

theorem body_obligation2 (c : Dev nD) : BodyObligation (dat2 (F := F) V c) (defs₀ (F := F)) Variants.none () Set.univ := fun t => by
  rw [bigSep_W2, bigSep_W2]
  dsimp only [dat2]
  exact mlp_body_at c (bodyAt2 t) (kern := cc2__mlp_kernel) rfl rfl (before_block (dat2 V c) 0 t) (before_block (dat2 V c) 1 t) (before_block (dat2 V c) 2 t) (before_block (dat2 V c) 3 t) (before_block (dat2 V c) 4 t) (before_block (dat2 V c) 5 t) _ _

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => mlpOut (iblk3 V c 0 t) (iblk3 V c 1 t) (iblk3 V c 2 t) (iblk3 V c 3 t) (iblk3 V c 4 t) (iblk3 V c 5 t)
  Φ _ := Pipeline.ΦA spec3 c
  q _ := fullShare
  owed _ := 0

theorem after3_6 (c : Dev nD) (t : Fin cfg3.N) : (dat3 V c).after 6 t =
    mlpOut (iblk3 V c 0 t) (iblk3 V c 1 t) (iblk3 V c 2 t) (iblk3 V c 3 t) (iblk3 V c 4 t) (iblk3 V c 5 t) := by dsimp only [dat3]

theorem body_obligation3 (c : Dev nD) : BodyObligation (dat3 (F := F) V c) (defs₀ (F := F)) Variants.none () Set.univ := fun t => by
  rw [bigSep_W3, bigSep_W3]
  dsimp only [dat3]
  exact mlp_body_at c (bodyAt3 t) (kern := cc3__mlp_kernel) rfl rfl (before_block (dat3 V c) 0 t) (before_block (dat3 V c) 1 t) (before_block (dat3 V c) 2 t) (before_block (dat3 V c) 3 t) (before_block (dat3 V c) 4 t) (before_block (dat3 V c) 5 t) _ _

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => mlpOut (iblk4 V c 0 t) (iblk4 V c 1 t) (iblk4 V c 2 t) (iblk4 V c 3 t) (iblk4 V c 4 t) (iblk4 V c 5 t)
  Φ _ := Pipeline.ΦA spec4 c
  q _ := fullShare
  owed _ := 0

theorem after4_6 (c : Dev nD) (t : Fin cfg4.N) : (dat4 V c).after 6 t =
    mlpOut (iblk4 V c 0 t) (iblk4 V c 1 t) (iblk4 V c 2 t) (iblk4 V c 3 t) (iblk4 V c 4 t) (iblk4 V c 5 t) := by dsimp only [dat4]

theorem body_obligation4 (c : Dev nD) : BodyObligation (dat4 (F := F) V c) (defs₀ (F := F)) Variants.none () Set.univ := fun t => by
  rw [bigSep_W4, bigSep_W4]
  dsimp only [dat4]
  exact mlp_body_at c (bodyAt4 t) (kern := cc4__mlp_kernel) rfl rfl (before_block (dat4 V c) 0 t) (before_block (dat4 V c) 1 t) (before_block (dat4 V c) 2 t) (before_block (dat4 V c) 3 t) (before_block (dat4 V c) 4 t) (before_block (dat4 V c) 5 t) _ _

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => mlpOut (iblk5 V c 0 t) (iblk5 V c 1 t) (iblk5 V c 2 t) (iblk5 V c 3 t) (iblk5 V c 4 t) (iblk5 V c 5 t)
  Φ _ := Pipeline.ΦA spec5 c
  q _ := fullShare
  owed _ := 0

theorem after5_6 (c : Dev nD) (t : Fin cfg5.N) : (dat5 V c).after 6 t =
    mlpOut (iblk5 V c 0 t) (iblk5 V c 1 t) (iblk5 V c 2 t) (iblk5 V c 3 t) (iblk5 V c 4 t) (iblk5 V c 5 t) := by dsimp only [dat5]

theorem body_obligation5 (c : Dev nD) : BodyObligation (dat5 (F := F) V c) (defs₀ (F := F)) Variants.none () Set.univ := fun t => by
  rw [bigSep_W5, bigSep_W5]
  dsimp only [dat5]
  exact mlp_body_at c (bodyAt5 t) (kern := cc5__mlp_kernel) rfl rfl (before_block (dat5 V c) 0 t) (before_block (dat5 V c) 1 t) (before_block (dat5 V c) 2 t) (before_block (dat5 V c) 3 t) (before_block (dat5 V c) 4 t) (before_block (dat5 V c) 5 t) _ _

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => mlpOut (iblk6 V c 0 t) (iblk6 V c 1 t) (iblk6 V c 2 t) (iblk6 V c 3 t) (iblk6 V c 4 t) (iblk6 V c 5 t)
  Φ _ := Pipeline.ΦA spec6 c
  q _ := fullShare
  owed _ := 0

theorem after6_6 (c : Dev nD) (t : Fin cfg6.N) : (dat6 V c).after 6 t =
    mlpOut (iblk6 V c 0 t) (iblk6 V c 1 t) (iblk6 V c 2 t) (iblk6 V c 3 t) (iblk6 V c 4 t) (iblk6 V c 5 t) := by dsimp only [dat6]

theorem body_obligation6 (c : Dev nD) : BodyObligation (dat6 (F := F) V c) (defs₀ (F := F)) Variants.none () Set.univ := fun t => by
  rw [bigSep_W6, bigSep_W6]
  dsimp only [dat6]
  exact mlp_body_at c (bodyAt6 t) (kern := cc6__mlp_kernel) rfl rfl (before_block (dat6 V c) 0 t) (before_block (dat6 V c) 1 t) (before_block (dat6 V c) 2 t) (before_block (dat6 V c) 3 t) (before_block (dat6 V c) 4 t) (before_block (dat6 V c) 5 t) _ _

end Cert.Kernel.Hand

end
-- ==== Proof.K.Reg7Runs.lean ====
import proofs.«429188_j41669772706622_1_alg».proof.Proof.Gen.Kernel.Launch
import proofs.«429188_j41669772706622_1_alg».proof.Proof.Gen.Kernel.Skeleton
import proofs.«429188_j41669772706622_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond7_0 (i : grid7.Coords) : Prop :=
  (Scalar.cmpi .ne (Scalar.extui (Scalar.cmpi .eq (BitVec.ofNat 32 (i 0).val) 0#32)) 0#32) = 1#1

theorem zeros7 : (![0, 0] : Fin 2 → ℕ) = fun _ => 0 := by
  funext a; fin_cases a <;> rfl

section Whole
variable {sig' : RefSig} {κ : Kind} {sp : Space} {S : Shape} {e : EltTy} {Val : EltTy → Type} [∀ e, Nonempty (Val e)]

theorem whole7_read_writes (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

theorem whole7_readAt (v : View sig' κ sp S e) (f : v.ty.Contents Val) {off : Fin S.rank → ℕ} (h : off = fun _ => 0)
    (inb : ∀ a, off a + S.size a ≤ S.size a) :
    v.readAt Val (Rect.unit off S.size inb).toLoadRect f = v.read Val f :=
  View.ld_unit_zero h inb (v.read Val f)

theorem whole7_readAt_ite (v : View sig' κ sp S e) (f : v.ty.Contents Val) {off : Fin S.rank → ℕ} (h : off = fun _ => 0)
    (inb : ∀ a, off a + S.size a ≤ S.size a) (C : Prop) [Decidable C] (w : S.Idx → Val e) :
    v.readAt Val (Rect.unit off S.size inb).toLoadRect
        (if _ : C then v.writes Val f [(⟨Rect.unit off S.size inb, w⟩ : View.Piece Val S e)] else f)
      = if C then w else v.read Val f := by
  split
  · rw [whole7_readAt _ _ h, whole7_read_writes _ _ h]
  · rw [whole7_readAt _ _ h]

end Whole

section Runs
variable (c : Dev nD) (E : Set ℕ) (i : grid7.Coords)
  (arg1 : Memref sig .tc .vmem S1000x128 .f32) (harg1 : arg1.IsWhole) (arg2 : Memref sig .tc .vmem S1000x1 .i32) (harg2 : arg2.IsWhole)
  (arg3 : Memref sig .tc .vmem S2048x128 .f32) (harg3 : arg3.IsWhole) (arg4 : Memref sig .tc .vmem S2048x1 .f32) (harg4 : arg4.IsWhole)
  (arg5 : Memref sig .tc .vmem S2048x128 .f32) (harg5 : arg5.IsWhole) (arg6 : Memref sig .tc .vmem S2048x1 .f32) (harg6 : arg6.IsWhole)

abbrev post7 (x0 : Vec F S1000x128 .f32) (x1 : Vec F S1000x1 .i32) (a0 : Vec F S2048x128 .f32) (a1 : Vec F S2048x1 .f32) : sProp 𝕄 :=
  iprop(owns (c : Thread nD τ) arg1 fullShare x0 ∗ owns (c : Thread nD τ) arg2 fullShare x1
    ∗ owns (c : Thread nD τ) arg3 fullShare (k7_pay4 x1 x0 a0) ∗ owns (c : Thread nD τ) arg4 fullShare (k7_pay5 x1 a1)
    ∗ owns (c : Thread nD τ) arg5 fullShare (k7_pay4 x1 x0 a0) ∗ owns (c : Thread nD τ) arg6 fullShare (k7_pay5 x1 a1))
abbrev pre7 (x0 : Vec F S1000x128 .f32) (x1 : Vec F S1000x1 .i32) (P Q R : sProp 𝕄) : sProp 𝕄 :=
  iprop(owns (c : Thread nD τ) arg1 fullShare x0 ∗ owns (c : Thread nD τ) arg2 fullShare x1
    ∗ (∃ d, owns (c : Thread nD τ) arg3 fullShare d) ∗ (∃ d, owns (c : Thread nD τ) arg4 fullShare d) ∗ P ∗ Q ∗ R)

set_option maxHeartbeats 2000000 in

theorem sound_kernel7 (x0 : Vec F S1000x128 .f32) (x1 : Vec F S1000x1 .i32)
    (s0 : Vec F S2048x128 .f32) (s1 : Vec F S2048x1 .f32) (K : PUnit → sProp 𝕄) :
    pre7 c arg1 arg2 arg3 arg4 x0 x1 (owns (c : Thread nD τ) arg5 fullShare s0) (owns (c : Thread nD τ) arg6 fullShare s1)
        iprop(post7 c arg1 arg2 arg3 arg4 arg5 arg6 x0 x1 (if cond7_0 i then k7_pay1 else s0) (if cond7_0 i then k7_pay2 else s1) -∗ K ⟨⟩)
      ⊢ wp frame (wpE (defs₀ (F := F)) Variants.none c none) E
          (cc7__pool_kernel i arg1 harg1 arg2 harg2 arg3 harg3 arg4 harg4 arg5 harg5 arg6 harg6) K := by
  unfold pre7 post7
  simp only [cc7__pool_kernel_eq_skeleton]; unfold cc7__pool_kernel_skel
  simp only [k7_part1_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0 hf1 hf4 hf5
  sl_exec
  sl_step
  iapply Hk
  isplitl [H0]; swap; isplitl [H1]; swap; isplitl [H2]; swap; isplitl [H3]; swap; isplitl [H4]; swap
  all_goals
    iexists _; isplitr; swap; · iassumption
    ipureintro; sl_unfold_run_names
    repeat (first | rw [whole7_readAt_ite _ _ zeros7] | rw [whole7_read_writes _ _ zeros7] | rw [View.readCov_cons_toLoadRect] | rw [whole7_readAt _ _ zeros7])
    try rfl

theorem sound_kernel7_A (hc0 : cond7_0 i) (x0 : Vec F S1000x128 .f32) (x1 : Vec F S1000x1 .i32) (K : PUnit → sProp 𝕄) :
    pre7 c arg1 arg2 arg3 arg4 x0 x1 iprop(∃ d, owns (c : Thread nD τ) arg5 fullShare d) iprop(∃ d, owns (c : Thread nD τ) arg6 fullShare d)
        iprop(post7 c arg1 arg2 arg3 arg4 arg5 arg6 x0 x1 (k7_pay1 (F := F)) (k7_pay2 (F := F)) -∗ K ⟨⟩)
      ⊢ wp frame (wpE (defs₀ (F := F)) Variants.none c none) E
          (cc7__pool_kernel i arg1 harg1 arg2 harg2 arg3 harg3 arg4 harg4 arg5 harg5 arg6 harg6) K := by
  have h := fun s0 s1 => sound_kernel7 c E i arg1 harg1 arg2 harg2 arg3 harg3 arg4 harg4 arg5 harg5 arg6 harg6 x0 x1 s0 s1 K
  simp only [if_pos hc0] at h
  unfold pre7 at h ⊢
  iintro ⟨H0, H1, H2, H3, ⟨%s0, H4⟩, ⟨%s1, H5⟩, Hk⟩
  iapply h s0 s1
  isplitl [H0]; swap; isplitl [H1]; swap; isplitl [H2]; swap; isplitl [H3]; swap; isplitl [H4]; swap; isplitl [H5]
  all_goals iassumption

theorem sound_kernel7_B (hc0 : ¬cond7_0 i) (x0 : Vec F S1000x128 .f32) (x1 : Vec F S1000x1 .i32)
    (s0 : Vec F S2048x128 .f32) (s1 : Vec F S2048x1 .f32) (K : PUnit → sProp 𝕄) :
    pre7 c arg1 arg2 arg3 arg4 x0 x1 (owns (c : Thread nD τ) arg5 fullShare s0) (owns (c : Thread nD τ) arg6 fullShare s1)
        iprop(post7 c arg1 arg2 arg3 arg4 arg5 arg6 x0 x1 s0 s1 -∗ K ⟨⟩)
      ⊢ wp frame (wpE (defs₀ (F := F)) Variants.none c none) E
          (cc7__pool_kernel i arg1 harg1 arg2 harg2 arg3 harg3 arg4 harg4 arg5 harg5 arg6 harg6) K := by
  have h := sound_kernel7 c E i arg1 harg1 arg2 harg2 arg3 harg3 arg4 harg4 arg5 harg5 arg6 harg6 x0 x1 s0 s1 K
  simp only [if_neg hc0] at h
  exact h

end Runs

end Cert.Kernel.Hand

end
-- ==== Proof.K.Reg7.lean ====
import proofs.«429188_j41669772706622_1_alg».proof.Proof.Gen.Kernel.Launch
import proofs.«429188_j41669772706622_1_alg».proof.Proof.Gen.Kernel.Skeleton
import proofs.«429188_j41669772706622_1_alg».proof.Proof.Gen.Kernel.Points
import proofs.«429188_j41669772706622_1_alg».proof.Proof.Gen.Kernel.Regions
import proofs.«429188_j41669772706622_1_alg».proof.Proof.K.Reg7Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem hcond7_0 : ∀ t : Fin cfg7.N, cond7_0 (grid7.coords t) ↔ t.val = 0 :=
  (by decide +kernel : ∀ t : Fin grid7.N, cond7_0 (grid7.coords t) ↔ t.val = 0)

abbrev scM7_0 : Memref sig .tc .vmem S2048x128 .f32 := Memref.whole cc7_scratch0
abbrev scM7_1 : Memref sig .tc .vmem S2048x1 .f32 := Memref.whole cc7_scratch1

def scAt7 (c : Dev nD) : (n : ℕ) → n < cfg7.N → Vec F S2048x128 .f32 × Vec F S2048x1 .f32
  | 0, hn => (k7_pay4 (iblk7 V c 1 ⟨0, hn⟩) (iblk7 V c 0 ⟨0, hn⟩) k7_pay1, k7_pay5 (iblk7 V c 1 ⟨0, hn⟩) k7_pay2)
  | n + 1, hn =>
    (k7_pay4 (iblk7 V c 1 ⟨n + 1, hn⟩) (iblk7 V c 0 ⟨n + 1, hn⟩) (scAt7 c n (Nat.lt_of_succ_lt hn)).1,
     k7_pay5 (iblk7 V c 1 ⟨n + 1, hn⟩) (scAt7 c n (Nat.lt_of_succ_lt hn)).2)

theorem scAt7_zero (c : Dev nD) (h : 0 < cfg7.N) :
    scAt7 V c 0 h = (k7_pay4 (iblk7 V c 1 ⟨0, h⟩) (iblk7 V c 0 ⟨0, h⟩) (k7_pay1 (F := F)), k7_pay5 (iblk7 V c 1 ⟨0, h⟩) (k7_pay2 (F := F))) := rfl

theorem scAt7_succ (c : Dev nD) (n : ℕ) (h : n + 1 < cfg7.N) :
    scAt7 V c (n + 1) h
      = (k7_pay4 (iblk7 V c 1 ⟨n + 1, h⟩) (iblk7 V c 0 ⟨n + 1, h⟩) (scAt7 V c n (Nat.lt_of_succ_lt h)).1,
         k7_pay5 (iblk7 V c 1 ⟨n + 1, h⟩) (scAt7 V c n (Nat.lt_of_succ_lt h)).2) := rfl

theorem scAt7_A (c : Dev nD) (t : Fin cfg7.N) (h0 : t.val = 0) :
    scAt7 V c t.val t.isLt = (k7_pay4 (iblk7 V c 1 t) (iblk7 V c 0 t) (k7_pay1 (F := F)), k7_pay5 (iblk7 V c 1 t) (k7_pay2 (F := F))) := by
  obtain ⟨n, hn⟩ := t
  cases n with
  | zero => exact rfl
  | succ n => exact absurd h0 (Nat.succ_ne_zero n)

theorem scAt7_B (c : Dev nD) (t : Fin cfg7.N) (h0 : t.val ≠ 0) :
    scAt7 V c t.val t.isLt
      = (k7_pay4 (iblk7 V c 1 t) (iblk7 V c 0 t) (scAt7 V c (t.val - 1) (Nat.lt_of_le_of_lt (Nat.sub_le _ _) t.isLt)).1,
         k7_pay5 (iblk7 V c 1 t) (scAt7 V c (t.val - 1) (Nat.lt_of_le_of_lt (Nat.sub_le _ _) t.isLt)).2) := by
  obtain ⟨n, hn⟩ := t
  cases n with
  | zero => exact absurd rfl h0
  | succ n => exact rfl

def acc7 (c : Dev nD) (s0 : Vec F S2048x128 .f32) (s1 : Vec F S2048x1 .f32) : sProp 𝕄 :=
  iprop(iprop(owns (c : Thread nD τ) scM7_0 fullShare s0 ∗ owns (c : Thread nD τ) scM7_1 fullShare s1
      ∗ Pipeline.scopedRestBut (Ix := Unit) (Name := ℕ) (U := UR sig nD τ) (Lvl := ℕ) (Val := Elt F) spec7 c [cc7_scratch0, cc7_scratch1])
    ∗ (∃ r, prngReg c r))

def PhiS7 (c : Dev nD) : (n : ℕ) → n ≤ cfg7.N → sProp 𝕄
  | 0, _ => Pipeline.ΦA spec7 c
  | n + 1, hn => acc7 c (scAt7 V c n hn).1 (scAt7 V c n hn).2

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = acc7 c (scAt7 V c n hn).1 (scAt7 V c n hn).2 := rfl

theorem PhiS7_pos (c : Dev nD) (n : ℕ) (h : n ≤ cfg7.N) (hz : n ≠ 0) :
    PhiS7 V c n h = acc7 c (scAt7 V c (n - 1) (by omega)).1 (scAt7 V c (n - 1) (by omega)).2 := by
  cases n with
  | zero => exact absurd rfl hz
  | succ n => rfl

theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1])
        ∗ (∃ r, prngReg c r)) := by
  unfold Pipeline.ΦA; rw [scopedRest7_split]; simp only [scM7_0, scM7_1, owns_whole]; try rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (scAt7 V c t.val t.isLt).1
    | ⟨3, _⟩ => (scAt7 V c t.val t.isLt).2
  Φ t := PhiS7 V c t.val (Nat.le_of_lt_succ t.isLt)
  q _ := fullShare
  owed _ := 0

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (scAt7 V c t.val t.isLt).1 := by dsimp only [dat7]
theorem after7_3 (c : Dev nD) (t : Fin cfg7.N) : (dat7 V c).after 3 t = (scAt7 V c t.val t.isLt).2 := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl

set_option maxHeartbeats 800000 in
theorem pool_body (c : Dev nD) (t : Fin cfg7.N) (a0 : Memref sig .tc .vmem S1000x128 .f32) (h0 : a0.IsWhole)
    (a1 : Memref sig .tc .vmem S1000x1 .i32) (h1 : a1.IsWhole) (a2 : Memref sig .tc .vmem S2048x128 .f32) (h2 : a2.IsWhole)
    (a3 : Memref sig .tc .vmem S2048x1 .f32) (h3 : a3.IsWhole) (hs0 : (scM7_0 : Memref sig .tc .vmem S2048x128 .f32).IsWhole)
    (hs1 : (scM7_1 : Memref sig .tc .vmem S2048x1 .f32).IsWhole)
    {D0 D1 D2 D3 : Type} {b0 : D0 → Vec F S1000x128 .f32} {b1 : D1 → Vec F S1000x1 .i32} {b2 : D2 → Vec F S2048x128 .f32}
    {b3 : D3 → Vec F S2048x1 .f32} (e0 : ∀ d, b0 d = iblk7 V c 0 t) (e1 : ∀ d, b1 d = iblk7 V c 1 t) (Q : sProp 𝕄) :
    iprop(PhiS7 V c t.val (Nat.le_of_lt t.isLt) ∗ Q ∗ (∃ d, owns (c : Thread nD τ) a0 fullShare (b0 d))
        ∗ (∃ d, owns (c : Thread nD τ) a1 fullShare (b1 d)) ∗ (∃ d, owns (c : Thread nD τ) a2 fullShare (b2 d))
        ∗ (∃ d, owns (c : Thread nD τ) a3 fullShare (b3 d)))
      ⊢ wp frame (wpE (defs₀ (F := F)) Variants.none c none) Set.univ
          (cc7__pool_kernel (grid7.coords t) a0 h0 a1 h1 a2 h2 a3 h3 scM7_0 hs0 scM7_1 hs1)
          (fun _ => iprop(PhiS7 V c (t.val + 1) t.isLt ∗ Q ∗ owns (c : Thread nD τ) a0 fullShare (iblk7 V c 0 t)
            ∗ owns (c : Thread nD τ) a1 fullShare (iblk7 V c 1 t) ∗ owns (c : Thread nD τ) a2 fullShare (scAt7 V c t.val t.isLt).1
            ∗ owns (c : Thread nD τ) a3 fullShare (scAt7 V c t.val t.isLt).2)) := by
  simp only [e0, e1]
  rw [PhiS7_succ]
  by_cases hz : t.val = 0
  on_goal 1 =>
    rw [PhiS7_zero V c _ _ hz, PhiA7_eq, scAt7_A V c t hz]
    unfold acc7
    iintro ⟨⟨⟨⟨Hs0, Hs1⟩, Hrest⟩, Hp⟩, Ho, ⟨%d0, H0⟩, ⟨%d1, H1⟩, ⟨%d2, H2⟩, ⟨%d3, H3⟩⟩
    iapply (sound_kernel7_A c Set.univ (grid7.coords t) _ _ _ _ _ _ _ _ _ _ _ _ ((hcond7_0 t).mpr hz) (iblk7 V c 0 t) (iblk7 V c 1 t) _)
  on_goal 2 =>
    rw [PhiS7_pos V c _ _ hz, scAt7_B V c t hz]
    unfold acc7
    iintro ⟨⟨⟨Hs0, Hs1, Hrest⟩, Hp⟩, Ho, ⟨%d0, H0⟩, ⟨%d1, H1⟩, ⟨%d2, H2⟩, ⟨%d3, H3⟩⟩
    iapply (sound_kernel7_B c Set.univ (grid7.coords t) _ _ _ _ _ _ _ _ _ _ _ _ (fun h => hz ((hcond7_0 t).mp h)) (iblk7 V c 0 t) (iblk7 V c 1 t) _ _ _)
  all_goals
    isplitl [H0]; · iexact H0
    isplitl [H1]; · iexact H1
    isplitl [H2]; · iexists _; iexact H2
    isplitl [H3]; · iexists _; iexact H3
    isplitl [Hs0]; · iexact Hs0
    isplitl [Hs1]; · iexact Hs1
    iintro ⟨H0, H1, H2, H3, Hs0, Hs1⟩
    isplitl [Hs0 Hs1 Hrest Hp]
    · isplitr [Hp]
      · isplitl [Hs0]; · iexact Hs0
        isplitl [Hs1]; · iexact Hs1
        iexact Hrest
      · iexact Hp
    isplitl [Ho]; · iexact Ho
    isplitl [H0]; · iexact H0
    isplitl [H1]; · iexact H1
    isplitl [H2]; · iexact H2
    iexact H3

theorem body_obligation7 (c : Dev nD) : BodyObligation (dat7 (F := F) V c) (defs₀ (F := F)) Variants.none () Set.univ := fun t => by
  rw [bigSep_W7, bigSep_W7]
  simp only [after7_0, after7_1, after7_2, after7_3]
  show _ ⊢ wp _ _ _ (bodyAt7 t) _
  unfold bodyAt7
  exact pool_body V c t _ _ _ _ _ _ _ _ _ _ (before7_0 V c t) (before7_1 V c t) _

theorem hin7 (c : Dev nD) :
    iprop((∃ r, prngReg c r) ∗ Pipeline.prefHeld (pcfgs (F := F) 7).pre c (fun _ => fullShare) (adm (F := F) 7).1
        ∗ Pipeline.scopedRest (Pipeline.pin (pcfgs (F := F)) adm 7).spec c)
      ⊢ (dat7 V c).Φ 0 := by
  rw [show (dat7 V c).Φ 0 = PhiS7 V c 0 (Nat.zero_le _) from rfl, PhiS7_zero V c 0 _ rfl]; unfold Pipeline.ΦA
  iintro ⟨Hp, -, Hr⟩
  isplitl [Hr]; · iexact Hr
  iexact Hp

theorem hout7 (c : Dev nD) :
    (dat7 V c).Φ (Fin.last cfg7.N)
      ⊢ iprop((∃ r, prngReg c r) ∗ Pipeline.ownSems0 (fun k : PEmpty => k.elim) c
        ∗ Pipeline.scopedRest (Pipeline.pin (pcfgs (F := F)) adm 7).spec c) := by
  rw [Pipeline.ownSems0_none,
    show (dat7 V c).Φ (Fin.last cfg7.N) = PhiS7 V c (Fin.last cfg7.N).val (Nat.le_of_lt_succ (Fin.last cfg7.N).isLt) from rfl,
    PhiS7_pos V c _ _ (by rw [Fin.val_last]; have : cfg7.N = 100 := N_7; omega),
    show Pipeline.scopedRest (Pipeline.pin (pcfgs (F := F)) adm 7).spec c
      = Pipeline.scopedRest (Ix := Unit) (Name := ℕ) (U := UR sig nD τ) (Lvl := ℕ) (Val := Elt F) spec7 c from rfl,
    scopedRest7_split]
  simp only [acc7, scM7_0, scM7_1, owns_whole]
  iintro ⟨⟨Hs0, Hs1, Hrest⟩, Hp⟩
  isplitl [Hp]; · iexact Hp
  isplitr; · iempintro
  isplitl [Hs0 Hs1]
  · isplitl [Hs0]
    · iexists _; iexact Hs0
    · iexists _; iexact Hs1
  iexact Hrest

end Cert.Kernel.Hand

end
-- ==== Proof.K.Run.lean ====
import proofs.«429188_j41669772706622_1_alg».proof.Proof.Gen.Kernel.Regions
import proofs.«429188_j41669772706622_1_alg».proof.Proof.K.Reg0
import proofs.«429188_j41669772706622_1_alg».proof.Proof.K.Mlp
import proofs.«429188_j41669772706622_1_alg».proof.Proof.K.Reg7

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev Tat (W : Dev nD → Valuation τ sig (Elt F)) (c : Dev nD) : sProp 𝕄 :=
  iprop(StableHlo.held (c : Thread nD τ) (Pipeline.ucRefs τ sig) (W c) ∗ R c)

structure Plain {cfg : Cfg sig Λ₀} {c : Dev nD} (dat : Dat τ (Elt F) Unit ℕ (UR sig nD τ) ℕ cfg c)
    (V : (b : Ref sig .tc) → Buf (Elt F) ((c : Thread nD τ).loc b)) : Prop where
  hA : ∀ w, dat.A w = V (Pipeline.arrRef cfg.spec w)
  hq : ∀ w, dat.q w = fullShare
  ho : ∀ t, dat.owed t = 0
  hr : ∀ t, dat.recorded t = Set.univ

abbrev exitW {cfg : Cfg sig Λ₀} (dat : (c : Dev nD) → Dat τ (Elt F) Unit ℕ (UR sig nD τ) ℕ cfg c)
    (W : Dev nD → Valuation τ sig (Elt F)) (c : Dev nD) : Valuation τ sig (Elt F) :=
  Pipeline.withArrays cfg.spec c (W c) fun w => (dat c).arrAt w cfg.N

theorem exitW_arr {cfg : Cfg sig Λ₀} (dat : (c : Dev nD) → Dat τ (Elt F) Unit ℕ (UR sig nD τ) ℕ cfg c)
    (W : Dev nD → Valuation τ sig (Elt F)) (c : Dev nD) (hinj : Function.Injective (Pipeline.arrRef cfg.spec)) (w : Fin cfg.W) :
    exitW dat W c (Proc.devRef .tc (Pipeline.arrRef cfg.spec w)) = (dat c).arrAt w cfg.N :=
  Pipeline.withArrays_arr _ hinj c _ _ w

theorem exitW_keep {cfg : Cfg sig Λ₀} (dat : (c : Dev nD) → Dat τ (Elt F) Unit ℕ (UR sig nD τ) ℕ cfg c)
    (W : Dev nD → Valuation τ sig (Elt F)) (c : Dev nD) (hinj : Function.Injective (Pipeline.arrRef cfg.spec))
    (hA : ∀ w, (dat c).A w = W c (Pipeline.arrRef cfg.spec w)) (b : Ref sig .tc)
    (hb : ∀ w, Pipeline.arrRef cfg.spec w = b → (cfg.win w).isOut = false) :
    exitW dat W c (Proc.devRef .tc b) = W c (Proc.devRef .tc b) := by
  by_cases h : ∃ w, Pipeline.arrRef cfg.spec w = b
  · obtain ⟨w, rfl⟩ := h
    exact (exitW_arr dat W c hinj w).trans (((dat c).arrAt_in w (hb w rfl) _).trans (hA w))
  · exact Pipeline.withArrays_of_ne _ c _ _ b fun w e => h ⟨w, e⟩

section
variable (pd : (p : Fin 8) → (c : Dev nD) → Dat τ (Elt F) Unit ℕ (UR sig nD τ) ℕ (Pipeline.pin (pcfgs (F := F)) adm p) c)
  (p : Fin 8)

abbrev Hin (c : Dev nD) : Prop :=
  iprop((∃ r, prngReg c r) ∗ Pipeline.prefHeld (pcfgs (F := F) p).pre c (fun _ => fullShare) (adm (F := F) p).1
        ∗ Pipeline.scopedRest (Pipeline.pin (pcfgs (F := F)) adm p).spec c) ⊢ (pd p c).Φ 0
abbrev Hout (c : Dev nD) : Prop :=
  (pd p c).Φ (Fin.last (Pipeline.pin (pcfgs (F := F)) adm p).N)
      ⊢ iprop((∃ r, prngReg c r) ∗ Pipeline.ownSems0 (fun k : PEmpty => k.elim) c
        ∗ Pipeline.scopedRest (Pipeline.pin (pcfgs (F := F)) adm p).spec c)

theorem hinA (c : Dev nD) (h : (pd p c).Φ 0 = Pipeline.ΦA (cfgs p).spec c) : Hin pd p c := by
  unfold Hin; rw [h]; unfold Pipeline.ΦA
  iintro ⟨Hp, -, Hr⟩
  isplitl [Hr]; · iexact Hr
  iexact Hp

theorem houtA (c : Dev nD) (h : (pd p c).Φ (Fin.last _) = Pipeline.ΦA (cfgs p).spec c) : Hout pd p c := by
  unfold Hout; rw [Pipeline.ownSems0_none, h]; unfold Pipeline.ΦA
  iintro ⟨Hr, Hp⟩
  isplitl [Hp]; · iexact Hp
  isplitr; · iempintro
  iexact Hr

def regOf (lf : Pipeline.LaunchFacts (nD := nD) (τ := τ) cfgs p) (Wa Wx : Dev nD → Valuation τ sig (Elt F))
    (hd : ∀ c, Plain (pd p c) fun b => Wa c b) (hWx : ∀ c, Wx c = exitW (pd p) Wa c)
    (hb : ∀ c, BodyObligation (pd p c) (defs₀ (F := F)) 𝒱₀ () Set.univ)
    (hin : ∀ c, Hin pd p c) (hout : ∀ c, Hout pd p c) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (hd c).ho
  pre := Tat Wa
  post := Tat Wx
  X c := iprop(∃ r, prngReg c r)
  Y c := iprop(∃ r, prngReg c r)
  Z c := Pipeline.unscopedRest (Ix := Unit) (Name := ℕ) (U := UR sig nD τ) (Lvl := ℕ) (cfgs p).spec c fun b => Wa c b
  hentry c := by
    rw [Pipeline.ownSems0_none]
    have hsplit := Pipeline.arrays_of_unscopedBufs (p := p) (pcfgs (F := F)) adm pd lf.win lf.arr_whole c
      ((pd p c).share_full (hd c).hq) (fun b => Wa c b) (hd c).hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [(hd c).ho, (hd c).hr]
      icases HO with ⟨%W, HO⟩; iexists W; isplitr; · ipureintro; exact fun _ _ => Or.inl trivial
      iexact HO
    isplitl [Hp]; · iexact Hp
    iexact Hrest
  hin := hin
  hout := hout
  hexit c := by
    have hjoin := Pipeline.unscopedBufs_of_arrays (p := p) (pcfgs (F := F)) adm (Ix := Unit) (Name := ℕ) (U := UR sig nD τ) (Lvl := ℕ)
      lf.win lf.arr_whole c pd ((pd p c).share_full (hd c).hq)
      (fun b => Wa c b) (fun b => Wx c b) ((pd p c).arrAt · (cfgs p).N)
      (fun w => by rw [hWx c]; exact (exitW_arr (pd p) Wa c lf.win.arr_inj w).symm)
      (fun b hb => by rw [hWx c]; exact Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(hd c).ho]
    icases HO with ⟨%W, -, HO⟩; iexists W; iexact HO

end

section
variable (m : (ℓ : Loc nD τ sig) → Buf (Elt F) ℓ) (ρ : Dev nD → PrngReg)

abbrev tcv (W : Dev nD → Valuation τ sig (Elt F)) (c : Dev nD) (b : Ref sig .tc) : Buf (Elt F) ((c : Thread nD τ).loc b) := W c b

abbrev W0 : Dev nD → Valuation τ sig (Elt F) := fun c b => (s₀ m ρ).mem ((c : Dev nD), b)
abbrev W1 : Dev nD → Valuation τ sig (Elt F) := fun c => StableHlo.after hostOps0 (W0 m ρ c)
abbrev V1 := tcv (W1 m ρ)
def W2 : Dev nD → Valuation τ sig (Elt F) := exitW (dat0 (V1 m ρ)) (W1 m ρ)
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev W3 : Dev nD → Valuation τ sig (Elt F) := fun c => StableHlo.after hostOps1 (W2 m ρ c)
abbrev V3 := tcv (W3 m ρ)
def W4 : Dev nD → Valuation τ sig (Elt F) := exitW (dat1 (V3 m ρ)) (W3 m ρ)
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev W5 : Dev nD → Valuation τ sig (Elt F) := fun c => StableHlo.after hostOps2 (W4 m ρ c)
abbrev V5 := tcv (W5 m ρ)
def W6 : Dev nD → Valuation τ sig (Elt F) := exitW (dat2 (V5 m ρ)) (W5 m ρ)
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev W7 : Dev nD → Valuation τ sig (Elt F) := fun c => StableHlo.after hostOps3 (W6 m ρ c)
abbrev V7 := tcv (W7 m ρ)
def W8 : Dev nD → Valuation τ sig (Elt F) := exitW (dat3 (V7 m ρ)) (W7 m ρ)
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev W9 : Dev nD → Valuation τ sig (Elt F) := fun c => StableHlo.after hostOps4 (W8 m ρ c)
abbrev V9 := tcv (W9 m ρ)
def W10 : Dev nD → Valuation τ sig (Elt F) := exitW (dat4 (V9 m ρ)) (W9 m ρ)
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev W11 : Dev nD → Valuation τ sig (Elt F) := fun c => StableHlo.after hostOps5 (W10 m ρ c)
abbrev V11 := tcv (W11 m ρ)
def W12 : Dev nD → Valuation τ sig (Elt F) := exitW (dat5 (V11 m ρ)) (W11 m ρ)
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev W13 : Dev nD → Valuation τ sig (Elt F) := fun c => StableHlo.after hostOps6 (W12 m ρ c)
abbrev V13 := tcv (W13 m ρ)
def W14 : Dev nD → Valuation τ sig (Elt F) := exitW (dat6 (V13 m ρ)) (W13 m ρ)
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev W15 : Dev nD → Valuation τ sig (Elt F) := fun c => StableHlo.after hostOps7 (W14 m ρ c)
abbrev V15 := tcv (W15 m ρ)
def W16 : Dev nD → Valuation τ sig (Elt F) := exitW (dat7 (V15 m ρ)) (W15 m ρ)
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev W17 : Dev nD → Valuation τ sig (Elt F) := fun c => StableHlo.after hostOps8 (W16 m ρ c)

theorem W2_out (c : Dev nD) : W2 m ρ c (Proc.devRef .tc main_v1) = (dat0 (V1 m ρ) c).arrAt 2 cfg0.N :=
  exitW_arr (dat0 (V1 m ρ)) (W1 m ρ) c launch0.win.arr_inj 2
theorem W4_out (c : Dev nD) : W4 m ρ c (Proc.devRef .tc main_v26) = (dat1 (V3 m ρ) c).arrAt 6 cfg1.N :=
  exitW_arr (dat1 (V3 m ρ)) (W3 m ρ) c launch1.win.arr_inj 6
theorem W6_out (c : Dev nD) : W6 m ρ c (Proc.devRef .tc main_v47) = (dat2 (V5 m ρ) c).arrAt 6 cfg2.N :=
  exitW_arr (dat2 (V5 m ρ)) (W5 m ρ) c launch2.win.arr_inj 6
theorem W8_out (c : Dev nD) : W8 m ρ c (Proc.devRef .tc main_v68) = (dat3 (V7 m ρ) c).arrAt 6 cfg3.N :=
  exitW_arr (dat3 (V7 m ρ)) (W7 m ρ) c launch3.win.arr_inj 6
theorem W10_out (c : Dev nD) : W10 m ρ c (Proc.devRef .tc main_v89) = (dat4 (V9 m ρ) c).arrAt 6 cfg4.N :=
  exitW_arr (dat4 (V9 m ρ)) (W9 m ρ) c launch4.win.arr_inj 6
theorem W12_out (c : Dev nD) : W12 m ρ c (Proc.devRef .tc main_v110) = (dat5 (V11 m ρ) c).arrAt 6 cfg5.N :=
  exitW_arr (dat5 (V11 m ρ)) (W11 m ρ) c launch5.win.arr_inj 6
theorem W14_out (c : Dev nD) : W14 m ρ c (Proc.devRef .tc main_v131) = (dat6 (V13 m ρ) c).arrAt 6 cfg6.N :=
  exitW_arr (dat6 (V13 m ρ)) (W13 m ρ) c launch6.win.arr_inj 6
theorem W16_out0 (c : Dev nD) : W16 m ρ c (Proc.devRef .tc main_v133_0) = (dat7 (V15 m ρ) c).arrAt 2 cfg7.N :=
  exitW_arr (dat7 (V15 m ρ)) (W15 m ρ) c launch7.win.arr_inj 2
theorem W16_out1 (c : Dev nD) : W16 m ρ c (Proc.devRef .tc main_v133_1) = (dat7 (V15 m ρ) c).arrAt 3 cfg7.N :=
  exitW_arr (dat7 (V15 m ρ)) (W15 m ρ) c launch7.win.arr_inj 3

abbrev mainArgs : List (Ref sig .tc) := [main_arg0, main_arg1, main_arg2, main_arg3, main_arg4, main_arg5, main_arg6, main_arg7]

theorem W17_arg (c : Dev nD) (r : Ref sig .tc) (hr : r ∈ mainArgs) : W17 m ρ c (Proc.devRef .tc r) = m ((c : Thread nD τ).loc r) :=
  (StableHlo.after_of_writes_sub hostOps8 _ hostOps8_writes ((by decide : ∀ r ∈ mainArgs, r ∉ hostOps8_W) r hr)).trans <|
  (exitW_keep _ _ c launch7.win.arr_inj (fun _ => rfl) r ((by decide : ∀ r ∈ mainArgs, ∀ w, Pipeline.arrRef spec7 w = r → (cfg7.win w).isOut = false) r hr)).trans <|
  (StableHlo.after_of_writes_sub hostOps7 _ hostOps7_writes ((by decide : ∀ r ∈ mainArgs, r ∉ hostOps7_W) r hr)).trans <|
  (exitW_keep _ _ c launch6.win.arr_inj (fun _ => rfl) r ((by decide : ∀ r ∈ mainArgs, ∀ w, Pipeline.arrRef spec6 w = r → (cfg6.win w).isOut = false) r hr)).trans <|
  (StableHlo.after_of_writes_sub hostOps6 _ hostOps6_writes ((by decide : ∀ r ∈ mainArgs, r ∉ hostOps6_W) r hr)).trans <|
  (exitW_keep _ _ c launch5.win.arr_inj (fun _ => rfl) r ((by decide : ∀ r ∈ mainArgs, ∀ w, Pipeline.arrRef spec5 w = r → (cfg5.win w).isOut = false) r hr)).trans <|
  (StableHlo.after_of_writes_sub hostOps5 _ hostOps5_writes ((by decide : ∀ r ∈ mainArgs, r ∉ hostOps5_W) r hr)).trans <|
  (exitW_keep _ _ c launch4.win.arr_inj (fun _ => rfl) r ((by decide : ∀ r ∈ mainArgs, ∀ w, Pipeline.arrRef spec4 w = r → (cfg4.win w).isOut = false) r hr)).trans <|
  (StableHlo.after_of_writes_sub hostOps4 _ hostOps4_writes ((by decide : ∀ r ∈ mainArgs, r ∉ hostOps4_W) r hr)).trans <|
  (exitW_keep _ _ c launch3.win.arr_inj (fun _ => rfl) r ((by decide : ∀ r ∈ mainArgs, ∀ w, Pipeline.arrRef spec3 w = r → (cfg3.win w).isOut = false) r hr)).trans <|
  (StableHlo.after_of_writes_sub hostOps3 _ hostOps3_writes ((by decide : ∀ r ∈ mainArgs, r ∉ hostOps3_W) r hr)).trans <|
  (exitW_keep _ _ c launch2.win.arr_inj (fun _ => rfl) r ((by decide : ∀ r ∈ mainArgs, ∀ w, Pipeline.arrRef spec2 w = r → (cfg2.win w).isOut = false) r hr)).trans <|
  (StableHlo.after_of_writes_sub hostOps2 _ hostOps2_writes ((by decide : ∀ r ∈ mainArgs, r ∉ hostOps2_W) r hr)).trans <|
  (exitW_keep _ _ c launch1.win.arr_inj (fun _ => rfl) r ((by decide : ∀ r ∈ mainArgs, ∀ w, Pipeline.arrRef spec1 w = r → (cfg1.win w).isOut = false) r hr)).trans <|
  (StableHlo.after_of_writes_sub hostOps1 _ hostOps1_writes ((by decide : ∀ r ∈ mainArgs, r ∉ hostOps1_W) r hr)).trans <|
  (exitW_keep _ _ c launch0.win.arr_inj (fun _ => rfl) r ((by decide : ∀ r ∈ mainArgs, ∀ w, Pipeline.arrRef spec0 w = r → (cfg0.win w).isOut = false) r hr)).trans <|
  (StableHlo.after_of_writes_sub hostOps0 _ hostOps0_writes ((by decide : ∀ r ∈ mainArgs, r ∉ hostOps0_W) r hr))

def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)

def reg0 : Pipeline.RegionSeg (pcfgs (F := F)) adm (pdats m ρ) () defs₀ 𝒱₀ L lv 0 :=
  regOf (pdats m ρ) 0 launch0 (W1 m ρ) (W2 m ρ) (fun _ => ⟨fun _ => rfl, fun _ => rfl, fun _ => rfl, fun _ => rfl⟩) (fun _ => rfl)
    (body_obligation0 (V1 m ρ)) (fun c => hinA _ _ c rfl) (fun c => houtA _ _ c rfl)
def reg1 : Pipeline.RegionSeg (pcfgs (F := F)) adm (pdats m ρ) () defs₀ 𝒱₀ L lv 1 :=
  regOf (pdats m ρ) 1 launch1 (W3 m ρ) (W4 m ρ) (fun _ => ⟨fun _ => rfl, fun _ => rfl, fun _ => rfl, fun _ => rfl⟩) (fun _ => rfl)
    (body_obligation1 (V3 m ρ)) (fun c => hinA _ _ c rfl) (fun c => houtA _ _ c rfl)
def reg2 : Pipeline.RegionSeg (pcfgs (F := F)) adm (pdats m ρ) () defs₀ 𝒱₀ L lv 2 :=
  regOf (pdats m ρ) 2 launch2 (W5 m ρ) (W6 m ρ) (fun _ => ⟨fun _ => rfl, fun _ => rfl, fun _ => rfl, fun _ => rfl⟩) (fun _ => rfl)
    (body_obligation2 (V5 m ρ)) (fun c => hinA _ _ c rfl) (fun c => houtA _ _ c rfl)
def reg3 : Pipeline.RegionSeg (pcfgs (F := F)) adm (pdats m ρ) () defs₀ 𝒱₀ L lv 3 :=
  regOf (pdats m ρ) 3 launch3 (W7 m ρ) (W8 m ρ) (fun _ => ⟨fun _ => rfl, fun _ => rfl, fun _ => rfl, fun _ => rfl⟩) (fun _ => rfl)
    (body_obligation3 (V7 m ρ)) (fun c => hinA _ _ c rfl) (fun c => houtA _ _ c rfl)
def reg4 : Pipeline.RegionSeg (pcfgs (F := F)) adm (pdats m ρ) () defs₀ 𝒱₀ L lv 4 :=
  regOf (pdats m ρ) 4 launch4 (W9 m ρ) (W10 m ρ) (fun _ => ⟨fun _ => rfl, fun _ => rfl, fun _ => rfl, fun _ => rfl⟩) (fun _ => rfl)
    (body_obligation4 (V9 m ρ)) (fun c => hinA _ _ c rfl) (fun c => houtA _ _ c rfl)
def reg5 : Pipeline.RegionSeg (pcfgs (F := F)) adm (pdats m ρ) () defs₀ 𝒱₀ L lv 5 :=
  regOf (pdats m ρ) 5 launch5 (W11 m ρ) (W12 m ρ) (fun _ => ⟨fun _ => rfl, fun _ => rfl, fun _ => rfl, fun _ => rfl⟩) (fun _ => rfl)
    (body_obligation5 (V11 m ρ)) (fun c => hinA _ _ c rfl) (fun c => houtA _ _ c rfl)
def reg6 : Pipeline.RegionSeg (pcfgs (F := F)) adm (pdats m ρ) () defs₀ 𝒱₀ L lv 6 :=
  regOf (pdats m ρ) 6 launch6 (W13 m ρ) (W14 m ρ) (fun _ => ⟨fun _ => rfl, fun _ => rfl, fun _ => rfl, fun _ => rfl⟩) (fun _ => rfl)
    (body_obligation6 (V13 m ρ)) (fun c => hinA _ _ c rfl) (fun c => houtA _ _ c rfl)
def reg7 : Pipeline.RegionSeg (pcfgs (F := F)) adm (pdats m ρ) () defs₀ 𝒱₀ L lv 7 :=
  regOf (pdats m ρ) 7 launch7 (W15 m ρ) (W16 m ρ) (fun _ => ⟨fun _ => rfl, fun _ => rfl, fun _ => rfl, fun _ => rfl⟩) (fun _ => rfl)
    (body_obligation7 (V15 m ρ)) (hin7 (V15 m ρ)) (hout7 (V15 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)) ]
theorem main_run (c : Dev nD) : main (F := F) c = Pipeline.Seg.run (segs m ρ) := by
  rw [main_chain c, Pipeline.Seg.run_eq_chain]; rfl

theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W17 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Tat (W0 m ρ)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show Tat (W17 m ρ) c ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := hQ)

theorem run_all : θ_run defs (onTc (τ := τ) (main (F := F))) ⟨m, fun _ => 0, ρ⟩
    (fun r => ∀ c : Dev nD, ∀ b ∈ Pipeline.ucRefs τ sig, r.2.mem (((c : Thread nD τ)).1, b) = W17 m ρ c b) :=
  run_post m ρ fun _ h => h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_post m ρ fun s h c =>
    have A := fun b hu hb => (h c _ (mem_uc b hu)).trans (W17_arg m ρ c b hb)
    ⟨A main_arg0 (by decide) (by decide), A main_arg1 (by decide) (by decide), A main_arg2 (by decide) (by decide),
     A main_arg3 (by decide) (by decide), A main_arg4 (by decide) (by decide), A main_arg5 (by decide) (by decide),
     A main_arg6 (by decide) (by decide), A main_arg7 (by decide) (by decide)⟩

end

end Cert.Kernel.Hand

end
-- ==== Proof.KI.Reg0.lean ====
import proofs.«429188_j41669772706622_1_alg».proof.Proof.Gen.KernelIdeal.Launch
import proofs.«429188_j41669772706622_1_alg».proof.Proof.Gen.KernelIdeal.Skeleton
import proofs.«429188_j41669772706622_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x1 := Rect.unit (s := S2000x1) ![0, 0] S2000x1.size inb_S2000x1_S2000x1_0_0
abbrev r0_1 : Rect S128x128 := Rect.unit (s := S128x128) ![0, 0] S128x128.size inb_S128x128_S128x128_0_0
abbrev r0_2 : Rect S2000x128 := Rect.unit (s := S2000x128) ![0, 0] S2000x128.size inb_S2000x128_S2000x128_0_0

def out0_2 (x0 : Vec F S2000x1 .i32) (x1 : Vec F S128x128 .f32) : Vec F S2000x128 .f32 :=
  View.canon [⟨r0_2, k0_pay1 (View.ld x0 r0_0) (View.ld x1 r0_1)⟩]

set_option maxHeartbeats 1000000 in
theorem emb_body (c : Dev nD) {E : Set ℕ} (i : grid0.Coords) (a0 : Memref sig .tc .vmem S2000x1 .i32) (h0 : a0.IsWhole)
    (a1 : Memref sig .tc .vmem S128x128 .f32) (h1 : a1.IsWhole) (a2 : Memref sig .tc .vmem S2000x128 .f32) (h2 : a2.IsWhole)
    {D0 D1 D2 : Type} {b0 : D0 → Vec F S2000x1 .i32} {b1 : D1 → Vec F S128x128 .f32} {b2 : D2 → Vec F S2000x128 .f32}
    {x0 : Vec F S2000x1 .i32} {x1 : Vec F S128x128 .f32} (e0 : ∀ d, b0 d = x0) (e1 : ∀ d, b1 d = x1) (P Q : sProp 𝕄) :
    iprop(P ∗ Q ∗ (∃ d, owns (c : Thread nD τ) a0 fullShare (b0 d)) ∗ (∃ d, owns (c : Thread nD τ) a1 fullShare (b1 d))
        ∗ (∃ d, owns (c : Thread nD τ) a2 fullShare (b2 d)))
      ⊢ wp frame (wpE (defs₀ (F := F)) Variants.none c none) E (cc0__emb_kernel i a0 h0 a1 h1 a2 h2)
          (fun _ => iprop(P ∗ Q ∗ owns (c : Thread nD τ) a0 fullShare x0 ∗ owns (c : Thread nD τ) a1 fullShare x1
            ∗ owns (c : Thread nD τ) a2 fullShare (out0_2 x0 x1))) := by
  simp only [cc0__emb_kernel_eq_skeleton]; unfold cc0__emb_kernel_skel owns
  iintro ⟨HP, HQ, ⟨%d0, %f0, %hf0, H0⟩, ⟨%d1, %f1, %hf1, H1⟩, ⟨%d2, %f2, -, H2⟩⟩
  obtain rfl := hf0.trans (e0 d0)
  obtain rfl := hf1.trans (e1 d1)
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r0_2, _⟩] S2000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [after0_0, after0_1, after0_2]
  show _ ⊢ wp _ _ _ (bodyAt0 t) _
  unfold bodyAt0
  exact emb_body c _ _ _ _ _ _ _ (before0_0 V c t) (before0_1 V c t) _ _

end Cert.KernelIdeal.Hand
-- ==== Proof.KI.Mlp.lean ====
import proofs.«429188_j41669772706622_1_alg».proof.Proof.Gen.KernelIdeal.Launch
import proofs.«429188_j41669772706622_1_alg».proof.Proof.Gen.KernelIdeal.Skeleton
import proofs.«429188_j41669772706622_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rX : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

def mlpOut (x0 x1 : Vec F S2000x128 .f32) (x2 : Vec F S128x128 .f32) (x3 : Vec F S1x128 .f32) (x4 : Vec F S128x128 .f32) (x5 : Vec F S1x128 .f32) : Vec F S2000x128 .f32 :=
  View.canon [⟨rX, k1_pay1 (View.ld x0 rX) (View.ld x1 rX) (View.ld x2 rW) (View.ld x3 rB) (View.ld x4 rW) (View.ld x5 rB)⟩]

theorem mlpOut_eq (x0 x1 : Vec F S2000x128 .f32) (x2 : Vec F S128x128 .f32) (x3 : Vec F S1x128 .f32) (x4 : Vec F S128x128 .f32) (x5 : Vec F S1x128 .f32) :
    mlpOut x0 x1 x2 x3 x4 x5 = View.canon [⟨rX, k1_pay1 (View.ld x0 rX) (View.ld x1 rX) (View.ld x2 rW) (View.ld x3 rB) (View.ld x4 rW) (View.ld x5 rB)⟩] := rfl

set_option maxHeartbeats 1000000 in

theorem mlp_body (c : Dev nD) {E : Set ℕ} (i : grid1.Coords) (a0 : Memref sig .tc .vmem S2000x128 .f32) (h0 : a0.IsWhole) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole)
    {D0 D1 D2 D3 D4 D5 D6 : Type} {b0 : D0 → Vec F S2000x128 .f32} {b1 : D1 → Vec F S2000x128 .f32} {b2 : D2 → Vec F S128x128 .f32} {b3 : D3 → Vec F S1x128 .f32} {b4 : D4 → Vec F S128x128 .f32} {b5 : D5 → Vec F S1x128 .f32} {b6 : D6 → Vec F S2000x128 .f32}
    {x0 x1 : Vec F S2000x128 .f32} {x2 : Vec F S128x128 .f32} {x3 : Vec F S1x128 .f32} {x4 : Vec F S128x128 .f32} {x5 : Vec F S1x128 .f32}
    (e0 : ∀ d, b0 d = x0) (e1 : ∀ d, b1 d = x1) (e2 : ∀ d, b2 d = x2) (e3 : ∀ d, b3 d = x3) (e4 : ∀ d, b4 d = x4) (e5 : ∀ d, b5 d = x5) (P Q : sProp 𝕄) :
    iprop(P ∗ Q ∗ (∃ d, owns (c : Thread nD τ) a0 fullShare (b0 d)) ∗ (∃ d, owns (c : Thread nD τ) a1 fullShare (b1 d)) ∗ (∃ d, owns (c : Thread nD τ) a2 fullShare (b2 d)) ∗ (∃ d, owns (c : Thread nD τ) a3 fullShare (b3 d)) ∗ (∃ d, owns (c : Thread nD τ) a4 fullShare (b4 d)) ∗ (∃ d, owns (c : Thread nD τ) a5 fullShare (b5 d)) ∗ (∃ d, owns (c : Thread nD τ) a6 fullShare (b6 d)))
      ⊢ wp frame (wpE (defs₀ (F := F)) Variants.none c none) E (cc1__mlp_kernel i a0 h0 a1 h1 a2 h2 a3 h3 a4 h4 a5 h5 a6 h6)
          (fun _ => iprop(P ∗ Q ∗ owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (mlpOut x0 x1 x2 x3 x4 x5))) := by
  simp only [cc1__mlp_kernel_eq_skeleton]; unfold cc1__mlp_kernel_skel owns
  iintro ⟨HP, HQ, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  obtain rfl := hf0.trans (e0 d0)
  obtain rfl := hf1.trans (e1 d1)
  obtain rfl := hf2.trans (e2 d2)
  obtain rfl := hf3.trans (e3 d3)
  obtain rfl := hf4.trans (e4 d4)
  obtain rfl := hf5.trans (e5 d5)
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled [⟨rX, _⟩] S2000x128.size (by rfl))

theorem mlp_body_at (c : Dev nD) {E : Set ℕ} (prog : Prog (TpuEff nD τ sig (Elt F) Λ₀ .tc) PUnit) {kern : type_of% (cc1__mlp_kernel (F := F))} {i : grid1.Coords} {a0 : Memref sig .tc .vmem S2000x128 .f32} {h0 : a0.IsWhole} {a1 : Memref sig .tc .vmem S2000x128 .f32} {h1 : a1.IsWhole} {a2 : Memref sig .tc .vmem S128x128 .f32} {h2 : a2.IsWhole} {a3 : Memref sig .tc .vmem S1x128 .f32} {h3 : a3.IsWhole} {a4 : Memref sig .tc .vmem S128x128 .f32} {h4 : a4.IsWhole} {a5 : Memref sig .tc .vmem S1x128 .f32} {h5 : a5.IsWhole} {a6 : Memref sig .tc .vmem S2000x128 .f32} {h6 : a6.IsWhole}
    (hp : prog = kern i a0 h0 a1 h1 a2 h2 a3 h3 a4 h4 a5 h5 a6 h6) (hk : kern = cc1__mlp_kernel)
    {D0 D1 D2 D3 D4 D5 D6 : Type} {b0 : D0 → Vec F S2000x128 .f32} {b1 : D1 → Vec F S2000x128 .f32} {b2 : D2 → Vec F S128x128 .f32} {b3 : D3 → Vec F S1x128 .f32} {b4 : D4 → Vec F S128x128 .f32} {b5 : D5 → Vec F S1x128 .f32} {b6 : D6 → Vec F S2000x128 .f32}
    {x0 x1 : Vec F S2000x128 .f32} {x2 : Vec F S128x128 .f32} {x3 : Vec F S1x128 .f32} {x4 : Vec F S128x128 .f32} {x5 : Vec F S1x128 .f32}
    (e0 : ∀ d, b0 d = x0) (e1 : ∀ d, b1 d = x1) (e2 : ∀ d, b2 d = x2) (e3 : ∀ d, b3 d = x3) (e4 : ∀ d, b4 d = x4) (e5 : ∀ d, b5 d = x5) (P Q : sProp 𝕄) :
    iprop(P ∗ Q ∗ (∃ d, owns (c : Thread nD τ) a0 fullShare (b0 d)) ∗ (∃ d, owns (c : Thread nD τ) a1 fullShare (b1 d)) ∗ (∃ d, owns (c : Thread nD τ) a2 fullShare (b2 d)) ∗ (∃ d, owns (c : Thread nD τ) a3 fullShare (b3 d)) ∗ (∃ d, owns (c : Thread nD τ) a4 fullShare (b4 d)) ∗ (∃ d, owns (c : Thread nD τ) a5 fullShare (b5 d)) ∗ (∃ d, owns (c : Thread nD τ) a6 fullShare (b6 d)))
      ⊢ wp frame (wpE (defs₀ (F := F)) Variants.none c none) E prog
          (fun _ => iprop(P ∗ Q ∗ owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (mlpOut x0 x1 x2 x3 x4 x5))) :=
  by subst hk hp; exact mlp_body c i a0 h0 a1 h1 a2 h2 a3 h3 a4 h4 a5 h5 a6 h6 e0 e1 e2 e3 e4 e5 P Q

theorem before_block {cfg : Cfg sig Λ₀} {c : Dev nD} (dat : Dat τ (Elt F) Unit ℕ (UR sig nD τ) ℕ cfg c) (w : Fin cfg.W) (t : Fin cfg.N)
    {x : (cfg.win w).block.Idx → Elt F (cfg.win w).elt}
    (hw : (cfg.win w).isOut = false := by rfl) (hlive : ∀ i, cfg.idle w i = false := by exact fun _ => rfl)
    (hclip : ∀ t t' : Fin cfg.N, (cfg.win w).index t = (cfg.win w).index t' →
      (cfg.win w).clip (cfg.grid.coords t) = (cfg.win w).clip (cfg.grid.coords t') := by exact fun _ _ _ => rfl)
    (hkeep : ∀ t, (cfg.win w).cut (cfg.grid.coords t) (dat.after w t) = dat.blockOf w t := by exact fun _ => rfl)
    (hfill : ∀ d, dat.fetched w t d = x := by exact fun _ => rfl) (d : (cfg.win w).block.Idx → Elt F (cfg.win w).elt) :
    dat.before w t d = x :=
  (dat.before_in_eq_fetched w hw hlive hclip hkeep t d).trans (hfill d)

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => mlpOut (iblk1 V c 0 t) (iblk1 V c 1 t) (iblk1 V c 2 t) (iblk1 V c 3 t) (iblk1 V c 4 t) (iblk1 V c 5 t)
  Φ _ := Pipeline.ΦA spec1 c
  q _ := fullShare
  owed _ := 0

theorem after1_6 (c : Dev nD) (t : Fin cfg1.N) : (dat1 V c).after 6 t =
    mlpOut (iblk1 V c 0 t) (iblk1 V c 1 t) (iblk1 V c 2 t) (iblk1 V c 3 t) (iblk1 V c 4 t) (iblk1 V c 5 t) := by dsimp only [dat1]

theorem body_obligation1 (c : Dev nD) : BodyObligation (dat1 (F := F) V c) (defs₀ (F := F)) Variants.none () Set.univ := fun t => by
  rw [bigSep_W1, bigSep_W1]
  dsimp only [dat1]
  exact mlp_body_at c (bodyAt1 t) (kern := cc1__mlp_kernel) rfl rfl (before_block (dat1 V c) 0 t) (before_block (dat1 V c) 1 t) (before_block (dat1 V c) 2 t) (before_block (dat1 V c) 3 t) (before_block (dat1 V c) 4 t) (before_block (dat1 V c) 5 t) _ _

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => mlpOut (iblk2 V c 0 t) (iblk2 V c 1 t) (iblk2 V c 2 t) (iblk2 V c 3 t) (iblk2 V c 4 t) (iblk2 V c 5 t)
  Φ _ := Pipeline.ΦA spec2 c
  q _ := fullShare
  owed _ := 0

theorem after2_6 (c : Dev nD) (t : Fin cfg2.N) : (dat2 V c).after 6 t =
    mlpOut (iblk2 V c 0 t) (iblk2 V c 1 t) (iblk2 V c 2 t) (iblk2 V c 3 t) (iblk2 V c 4 t) (iblk2 V c 5 t) := by dsimp only [dat2]

theorem body_obligation2 (c : Dev nD) : BodyObligation (dat2 (F := F) V c) (defs₀ (F := F)) Variants.none () Set.univ := fun t => by
  rw [bigSep_W2, bigSep_W2]
  dsimp only [dat2]
  exact mlp_body_at c (bodyAt2 t) (kern := cc2__mlp_kernel) rfl rfl (before_block (dat2 V c) 0 t) (before_block (dat2 V c) 1 t) (before_block (dat2 V c) 2 t) (before_block (dat2 V c) 3 t) (before_block (dat2 V c) 4 t) (before_block (dat2 V c) 5 t) _ _

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => mlpOut (iblk3 V c 0 t) (iblk3 V c 1 t) (iblk3 V c 2 t) (iblk3 V c 3 t) (iblk3 V c 4 t) (iblk3 V c 5 t)
  Φ _ := Pipeline.ΦA spec3 c
  q _ := fullShare
  owed _ := 0

theorem after3_6 (c : Dev nD) (t : Fin cfg3.N) : (dat3 V c).after 6 t =
    mlpOut (iblk3 V c 0 t) (iblk3 V c 1 t) (iblk3 V c 2 t) (iblk3 V c 3 t) (iblk3 V c 4 t) (iblk3 V c 5 t) := by dsimp only [dat3]

theorem body_obligation3 (c : Dev nD) : BodyObligation (dat3 (F := F) V c) (defs₀ (F := F)) Variants.none () Set.univ := fun t => by
  rw [bigSep_W3, bigSep_W3]
  dsimp only [dat3]
  exact mlp_body_at c (bodyAt3 t) (kern := cc3__mlp_kernel) rfl rfl (before_block (dat3 V c) 0 t) (before_block (dat3 V c) 1 t) (before_block (dat3 V c) 2 t) (before_block (dat3 V c) 3 t) (before_block (dat3 V c) 4 t) (before_block (dat3 V c) 5 t) _ _

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => mlpOut (iblk4 V c 0 t) (iblk4 V c 1 t) (iblk4 V c 2 t) (iblk4 V c 3 t) (iblk4 V c 4 t) (iblk4 V c 5 t)
  Φ _ := Pipeline.ΦA spec4 c
  q _ := fullShare
  owed _ := 0

theorem after4_6 (c : Dev nD) (t : Fin cfg4.N) : (dat4 V c).after 6 t =
    mlpOut (iblk4 V c 0 t) (iblk4 V c 1 t) (iblk4 V c 2 t) (iblk4 V c 3 t) (iblk4 V c 4 t) (iblk4 V c 5 t) := by dsimp only [dat4]

theorem body_obligation4 (c : Dev nD) : BodyObligation (dat4 (F := F) V c) (defs₀ (F := F)) Variants.none () Set.univ := fun t => by
  rw [bigSep_W4, bigSep_W4]
  dsimp only [dat4]
  exact mlp_body_at c (bodyAt4 t) (kern := cc4__mlp_kernel) rfl rfl (before_block (dat4 V c) 0 t) (before_block (dat4 V c) 1 t) (before_block (dat4 V c) 2 t) (before_block (dat4 V c) 3 t) (before_block (dat4 V c) 4 t) (before_block (dat4 V c) 5 t) _ _

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => mlpOut (iblk5 V c 0 t) (iblk5 V c 1 t) (iblk5 V c 2 t) (iblk5 V c 3 t) (iblk5 V c 4 t) (iblk5 V c 5 t)
  Φ _ := Pipeline.ΦA spec5 c
  q _ := fullShare
  owed _ := 0

theorem after5_6 (c : Dev nD) (t : Fin cfg5.N) : (dat5 V c).after 6 t =
    mlpOut (iblk5 V c 0 t) (iblk5 V c 1 t) (iblk5 V c 2 t) (iblk5 V c 3 t) (iblk5 V c 4 t) (iblk5 V c 5 t) := by dsimp only [dat5]

theorem body_obligation5 (c : Dev nD) : BodyObligation (dat5 (F := F) V c) (defs₀ (F := F)) Variants.none () Set.univ := fun t => by
  rw [bigSep_W5, bigSep_W5]
  dsimp only [dat5]
  exact mlp_body_at c (bodyAt5 t) (kern := cc5__mlp_kernel) rfl rfl (before_block (dat5 V c) 0 t) (before_block (dat5 V c) 1 t) (before_block (dat5 V c) 2 t) (before_block (dat5 V c) 3 t) (before_block (dat5 V c) 4 t) (before_block (dat5 V c) 5 t) _ _

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => mlpOut (iblk6 V c 0 t) (iblk6 V c 1 t) (iblk6 V c 2 t) (iblk6 V c 3 t) (iblk6 V c 4 t) (iblk6 V c 5 t)
  Φ _ := Pipeline.ΦA spec6 c
  q _ := fullShare
  owed _ := 0

theorem after6_6 (c : Dev nD) (t : Fin cfg6.N) : (dat6 V c).after 6 t =
    mlpOut (iblk6 V c 0 t) (iblk6 V c 1 t) (iblk6 V c 2 t) (iblk6 V c 3 t) (iblk6 V c 4 t) (iblk6 V c 5 t) := by dsimp only [dat6]

theorem body_obligation6 (c : Dev nD) : BodyObligation (dat6 (F := F) V c) (defs₀ (F := F)) Variants.none () Set.univ := fun t => by
  rw [bigSep_W6, bigSep_W6]
  dsimp only [dat6]
  exact mlp_body_at c (bodyAt6 t) (kern := cc6__mlp_kernel) rfl rfl (before_block (dat6 V c) 0 t) (before_block (dat6 V c) 1 t) (before_block (dat6 V c) 2 t) (before_block (dat6 V c) 3 t) (before_block (dat6 V c) 4 t) (before_block (dat6 V c) 5 t) _ _

end Cert.KernelIdeal.Hand

end
-- ==== Proof.KI.Reg7Runs.lean ====
import proofs.«429188_j41669772706622_1_alg».proof.Proof.Gen.KernelIdeal.Launch
import proofs.«429188_j41669772706622_1_alg».proof.Proof.Gen.KernelIdeal.Skeleton
import proofs.«429188_j41669772706622_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond7_0 (i : grid7.Coords) : Prop :=
  (Scalar.cmpi .ne (Scalar.extui (Scalar.cmpi .eq (BitVec.ofNat 32 (i 0).val) 0#32)) 0#32) = 1#1

theorem zeros7 : (![0, 0] : Fin 2 → ℕ) = fun _ => 0 := by
  funext a; fin_cases a <;> rfl

section Whole
variable {sig' : RefSig} {κ : Kind} {sp : Space} {S : Shape} {e : EltTy} {Val : EltTy → Type} [∀ e, Nonempty (Val e)]

theorem whole7_read_writes (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

theorem whole7_readAt (v : View sig' κ sp S e) (f : v.ty.Contents Val) {off : Fin S.rank → ℕ} (h : off = fun _ => 0)
    (inb : ∀ a, off a + S.size a ≤ S.size a) :
    v.readAt Val (Rect.unit off S.size inb).toLoadRect f = v.read Val f :=
  View.ld_unit_zero h inb (v.read Val f)

theorem whole7_readAt_ite (v : View sig' κ sp S e) (f : v.ty.Contents Val) {off : Fin S.rank → ℕ} (h : off = fun _ => 0)
    (inb : ∀ a, off a + S.size a ≤ S.size a) (C : Prop) [Decidable C] (w : S.Idx → Val e) :
    v.readAt Val (Rect.unit off S.size inb).toLoadRect
        (if _ : C then v.writes Val f [(⟨Rect.unit off S.size inb, w⟩ : View.Piece Val S e)] else f)
      = if C then w else v.read Val f := by
  split
  · rw [whole7_readAt _ _ h, whole7_read_writes _ _ h]
  · rw [whole7_readAt _ _ h]

end Whole

section Runs
variable (c : Dev nD) (E : Set ℕ) (i : grid7.Coords)
  (arg1 : Memref sig .tc .vmem S1000x128 .f32) (harg1 : arg1.IsWhole) (arg2 : Memref sig .tc .vmem S1000x1 .i32) (harg2 : arg2.IsWhole)
  (arg3 : Memref sig .tc .vmem S2048x128 .f32) (harg3 : arg3.IsWhole) (arg4 : Memref sig .tc .vmem S2048x1 .f32) (harg4 : arg4.IsWhole)
  (arg5 : Memref sig .tc .vmem S2048x128 .f32) (harg5 : arg5.IsWhole) (arg6 : Memref sig .tc .vmem S2048x1 .f32) (harg6 : arg6.IsWhole)

abbrev post7 (x0 : Vec F S1000x128 .f32) (x1 : Vec F S1000x1 .i32) (a0 : Vec F S2048x128 .f32) (a1 : Vec F S2048x1 .f32) : sProp 𝕄 :=
  iprop(owns (c : Thread nD τ) arg1 fullShare x0 ∗ owns (c : Thread nD τ) arg2 fullShare x1
    ∗ owns (c : Thread nD τ) arg3 fullShare (k7_pay4 x1 x0 a0) ∗ owns (c : Thread nD τ) arg4 fullShare (k7_pay5 x1 a1)
    ∗ owns (c : Thread nD τ) arg5 fullShare (k7_pay4 x1 x0 a0) ∗ owns (c : Thread nD τ) arg6 fullShare (k7_pay5 x1 a1))
abbrev pre7 (x0 : Vec F S1000x128 .f32) (x1 : Vec F S1000x1 .i32) (P Q R : sProp 𝕄) : sProp 𝕄 :=
  iprop(owns (c : Thread nD τ) arg1 fullShare x0 ∗ owns (c : Thread nD τ) arg2 fullShare x1
    ∗ (∃ d, owns (c : Thread nD τ) arg3 fullShare d) ∗ (∃ d, owns (c : Thread nD τ) arg4 fullShare d) ∗ P ∗ Q ∗ R)

set_option maxHeartbeats 2000000 in

theorem sound_kernel7 (x0 : Vec F S1000x128 .f32) (x1 : Vec F S1000x1 .i32)
    (s0 : Vec F S2048x128 .f32) (s1 : Vec F S2048x1 .f32) (K : PUnit → sProp 𝕄) :
    pre7 c arg1 arg2 arg3 arg4 x0 x1 (owns (c : Thread nD τ) arg5 fullShare s0) (owns (c : Thread nD τ) arg6 fullShare s1)
        iprop(post7 c arg1 arg2 arg3 arg4 arg5 arg6 x0 x1 (if cond7_0 i then k7_pay1 else s0) (if cond7_0 i then k7_pay2 else s1) -∗ K ⟨⟩)
      ⊢ wp frame (wpE (defs₀ (F := F)) Variants.none c none) E
          (cc7__pool_kernel i arg1 harg1 arg2 harg2 arg3 harg3 arg4 harg4 arg5 harg5 arg6 harg6) K := by
  unfold pre7 post7
  simp only [cc7__pool_kernel_eq_skeleton]; unfold cc7__pool_kernel_skel
  simp only [k7_part1_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0 hf1 hf4 hf5
  sl_exec
  sl_step
  iapply Hk
  isplitl [H0]; swap; isplitl [H1]; swap; isplitl [H2]; swap; isplitl [H3]; swap; isplitl [H4]; swap
  all_goals
    iexists _; isplitr; swap; · iassumption
    ipureintro; sl_unfold_run_names
    repeat (first | rw [whole7_readAt_ite _ _ zeros7] | rw [whole7_read_writes _ _ zeros7] | rw [View.readCov_cons_toLoadRect] | rw [whole7_readAt _ _ zeros7])
    try rfl

theorem sound_kernel7_A (hc0 : cond7_0 i) (x0 : Vec F S1000x128 .f32) (x1 : Vec F S1000x1 .i32) (K : PUnit → sProp 𝕄) :
    pre7 c arg1 arg2 arg3 arg4 x0 x1 iprop(∃ d, owns (c : Thread nD τ) arg5 fullShare d) iprop(∃ d, owns (c : Thread nD τ) arg6 fullShare d)
        iprop(post7 c arg1 arg2 arg3 arg4 arg5 arg6 x0 x1 (k7_pay1 (F := F)) (k7_pay2 (F := F)) -∗ K ⟨⟩)
      ⊢ wp frame (wpE (defs₀ (F := F)) Variants.none c none) E
          (cc7__pool_kernel i arg1 harg1 arg2 harg2 arg3 harg3 arg4 harg4 arg5 harg5 arg6 harg6) K := by
  have h := fun s0 s1 => sound_kernel7 c E i arg1 harg1 arg2 harg2 arg3 harg3 arg4 harg4 arg5 harg5 arg6 harg6 x0 x1 s0 s1 K
  simp only [if_pos hc0] at h
  unfold pre7 at h ⊢
  iintro ⟨H0, H1, H2, H3, ⟨%s0, H4⟩, ⟨%s1, H5⟩, Hk⟩
  iapply h s0 s1
  isplitl [H0]; swap; isplitl [H1]; swap; isplitl [H2]; swap; isplitl [H3]; swap; isplitl [H4]; swap; isplitl [H5]
  all_goals iassumption

theorem sound_kernel7_B (hc0 : ¬cond7_0 i) (x0 : Vec F S1000x128 .f32) (x1 : Vec F S1000x1 .i32)
    (s0 : Vec F S2048x128 .f32) (s1 : Vec F S2048x1 .f32) (K : PUnit → sProp 𝕄) :
    pre7 c arg1 arg2 arg3 arg4 x0 x1 (owns (c : Thread nD τ) arg5 fullShare s0) (owns (c : Thread nD τ) arg6 fullShare s1)
        iprop(post7 c arg1 arg2 arg3 arg4 arg5 arg6 x0 x1 s0 s1 -∗ K ⟨⟩)
      ⊢ wp frame (wpE (defs₀ (F := F)) Variants.none c none) E
          (cc7__pool_kernel i arg1 harg1 arg2 harg2 arg3 harg3 arg4 harg4 arg5 harg5 arg6 harg6) K := by
  have h := sound_kernel7 c E i arg1 harg1 arg2 harg2 arg3 harg3 arg4 harg4 arg5 harg5 arg6 harg6 x0 x1 s0 s1 K
  simp only [if_neg hc0] at h
  exact h

end Runs

end Cert.KernelIdeal.Hand

end
-- ==== Proof.KI.Reg7.lean ====
import proofs.«429188_j41669772706622_1_alg».proof.Proof.Gen.KernelIdeal.Launch
import proofs.«429188_j41669772706622_1_alg».proof.Proof.Gen.KernelIdeal.Skeleton
import proofs.«429188_j41669772706622_1_alg».proof.Proof.Gen.KernelIdeal.Points
import proofs.«429188_j41669772706622_1_alg».proof.Proof.Gen.KernelIdeal.Regions
import proofs.«429188_j41669772706622_1_alg».proof.Proof.KI.Reg7Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem hcond7_0 : ∀ t : Fin cfg7.N, cond7_0 (grid7.coords t) ↔ t.val = 0 :=
  (by decide +kernel : ∀ t : Fin grid7.N, cond7_0 (grid7.coords t) ↔ t.val = 0)

abbrev scM7_0 : Memref sig .tc .vmem S2048x128 .f32 := Memref.whole cc7_scratch0
abbrev scM7_1 : Memref sig .tc .vmem S2048x1 .f32 := Memref.whole cc7_scratch1

def scAt7 (c : Dev nD) : (n : ℕ) → n < cfg7.N → Vec F S2048x128 .f32 × Vec F S2048x1 .f32
  | 0, hn => (k7_pay4 (iblk7 V c 1 ⟨0, hn⟩) (iblk7 V c 0 ⟨0, hn⟩) k7_pay1, k7_pay5 (iblk7 V c 1 ⟨0, hn⟩) k7_pay2)
  | n + 1, hn =>
    (k7_pay4 (iblk7 V c 1 ⟨n + 1, hn⟩) (iblk7 V c 0 ⟨n + 1, hn⟩) (scAt7 c n (Nat.lt_of_succ_lt hn)).1,
     k7_pay5 (iblk7 V c 1 ⟨n + 1, hn⟩) (scAt7 c n (Nat.lt_of_succ_lt hn)).2)

theorem scAt7_zero (c : Dev nD) (h : 0 < cfg7.N) :
    scAt7 V c 0 h = (k7_pay4 (iblk7 V c 1 ⟨0, h⟩) (iblk7 V c 0 ⟨0, h⟩) (k7_pay1 (F := F)), k7_pay5 (iblk7 V c 1 ⟨0, h⟩) (k7_pay2 (F := F))) := rfl

theorem scAt7_succ (c : Dev nD) (n : ℕ) (h : n + 1 < cfg7.N) :
    scAt7 V c (n + 1) h
      = (k7_pay4 (iblk7 V c 1 ⟨n + 1, h⟩) (iblk7 V c 0 ⟨n + 1, h⟩) (scAt7 V c n (Nat.lt_of_succ_lt h)).1,
         k7_pay5 (iblk7 V c 1 ⟨n + 1, h⟩) (scAt7 V c n (Nat.lt_of_succ_lt h)).2) := rfl

theorem scAt7_A (c : Dev nD) (t : Fin cfg7.N) (h0 : t.val = 0) :
    scAt7 V c t.val t.isLt = (k7_pay4 (iblk7 V c 1 t) (iblk7 V c 0 t) (k7_pay1 (F := F)), k7_pay5 (iblk7 V c 1 t) (k7_pay2 (F := F))) := by
  obtain ⟨n, hn⟩ := t
  cases n with
  | zero => exact rfl
  | succ n => exact absurd h0 (Nat.succ_ne_zero n)

theorem scAt7_B (c : Dev nD) (t : Fin cfg7.N) (h0 : t.val ≠ 0) :
    scAt7 V c t.val t.isLt
      = (k7_pay4 (iblk7 V c 1 t) (iblk7 V c 0 t) (scAt7 V c (t.val - 1) (Nat.lt_of_le_of_lt (Nat.sub_le _ _) t.isLt)).1,
         k7_pay5 (iblk7 V c 1 t) (scAt7 V c (t.val - 1) (Nat.lt_of_le_of_lt (Nat.sub_le _ _) t.isLt)).2) := by
  obtain ⟨n, hn⟩ := t
  cases n with
  | zero => exact absurd rfl h0
  | succ n => exact rfl

def acc7 (c : Dev nD) (s0 : Vec F S2048x128 .f32) (s1 : Vec F S2048x1 .f32) : sProp 𝕄 :=
  iprop(iprop(owns (c : Thread nD τ) scM7_0 fullShare s0 ∗ owns (c : Thread nD τ) scM7_1 fullShare s1
      ∗ Pipeline.scopedRestBut (Ix := Unit) (Name := ℕ) (U := UR sig nD τ) (Lvl := ℕ) (Val := Elt F) spec7 c [cc7_scratch0, cc7_scratch1])
    ∗ (∃ r, prngReg c r))

def PhiS7 (c : Dev nD) : (n : ℕ) → n ≤ cfg7.N → sProp 𝕄
  | 0, _ => Pipeline.ΦA spec7 c
  | n + 1, hn => acc7 c (scAt7 V c n hn).1 (scAt7 V c n hn).2

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = acc7 c (scAt7 V c n hn).1 (scAt7 V c n hn).2 := rfl

theorem PhiS7_pos (c : Dev nD) (n : ℕ) (h : n ≤ cfg7.N) (hz : n ≠ 0) :
    PhiS7 V c n h = acc7 c (scAt7 V c (n - 1) (by omega)).1 (scAt7 V c (n - 1) (by omega)).2 := by
  cases n with
  | zero => exact absurd rfl hz
  | succ n => rfl

theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1])
        ∗ (∃ r, prngReg c r)) := by
  unfold Pipeline.ΦA; rw [scopedRest7_split]; simp only [scM7_0, scM7_1, owns_whole]; try rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (scAt7 V c t.val t.isLt).1
    | ⟨3, _⟩ => (scAt7 V c t.val t.isLt).2
  Φ t := PhiS7 V c t.val (Nat.le_of_lt_succ t.isLt)
  q _ := fullShare
  owed _ := 0

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (scAt7 V c t.val t.isLt).1 := by dsimp only [dat7]
theorem after7_3 (c : Dev nD) (t : Fin cfg7.N) : (dat7 V c).after 3 t = (scAt7 V c t.val t.isLt).2 := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl

set_option maxHeartbeats 800000 in
theorem pool_body (c : Dev nD) (t : Fin cfg7.N) (a0 : Memref sig .tc .vmem S1000x128 .f32) (h0 : a0.IsWhole)
    (a1 : Memref sig .tc .vmem S1000x1 .i32) (h1 : a1.IsWhole) (a2 : Memref sig .tc .vmem S2048x128 .f32) (h2 : a2.IsWhole)
    (a3 : Memref sig .tc .vmem S2048x1 .f32) (h3 : a3.IsWhole) (hs0 : (scM7_0 : Memref sig .tc .vmem S2048x128 .f32).IsWhole)
    (hs1 : (scM7_1 : Memref sig .tc .vmem S2048x1 .f32).IsWhole)
    {D0 D1 D2 D3 : Type} {b0 : D0 → Vec F S1000x128 .f32} {b1 : D1 → Vec F S1000x1 .i32} {b2 : D2 → Vec F S2048x128 .f32}
    {b3 : D3 → Vec F S2048x1 .f32} (e0 : ∀ d, b0 d = iblk7 V c 0 t) (e1 : ∀ d, b1 d = iblk7 V c 1 t) (Q : sProp 𝕄) :
    iprop(PhiS7 V c t.val (Nat.le_of_lt t.isLt) ∗ Q ∗ (∃ d, owns (c : Thread nD τ) a0 fullShare (b0 d))
        ∗ (∃ d, owns (c : Thread nD τ) a1 fullShare (b1 d)) ∗ (∃ d, owns (c : Thread nD τ) a2 fullShare (b2 d))
        ∗ (∃ d, owns (c : Thread nD τ) a3 fullShare (b3 d)))
      ⊢ wp frame (wpE (defs₀ (F := F)) Variants.none c none) Set.univ
          (cc7__pool_kernel (grid7.coords t) a0 h0 a1 h1 a2 h2 a3 h3 scM7_0 hs0 scM7_1 hs1)
          (fun _ => iprop(PhiS7 V c (t.val + 1) t.isLt ∗ Q ∗ owns (c : Thread nD τ) a0 fullShare (iblk7 V c 0 t)
            ∗ owns (c : Thread nD τ) a1 fullShare (iblk7 V c 1 t) ∗ owns (c : Thread nD τ) a2 fullShare (scAt7 V c t.val t.isLt).1
            ∗ owns (c : Thread nD τ) a3 fullShare (scAt7 V c t.val t.isLt).2)) := by
  simp only [e0, e1]
  rw [PhiS7_succ]
  by_cases hz : t.val = 0
  on_goal 1 =>
    rw [PhiS7_zero V c _ _ hz, PhiA7_eq, scAt7_A V c t hz]
    unfold acc7
    iintro ⟨⟨⟨⟨Hs0, Hs1⟩, Hrest⟩, Hp⟩, Ho, ⟨%d0, H0⟩, ⟨%d1, H1⟩, ⟨%d2, H2⟩, ⟨%d3, H3⟩⟩
    iapply (sound_kernel7_A c Set.univ (grid7.coords t) _ _ _ _ _ _ _ _ _ _ _ _ ((hcond7_0 t).mpr hz) (iblk7 V c 0 t) (iblk7 V c 1 t) _)
  on_goal 2 =>
    rw [PhiS7_pos V c _ _ hz, scAt7_B V c t hz]
    unfold acc7
    iintro ⟨⟨⟨Hs0, Hs1, Hrest⟩, Hp⟩, Ho, ⟨%d0, H0⟩, ⟨%d1, H1⟩, ⟨%d2, H2⟩, ⟨%d3, H3⟩⟩
    iapply (sound_kernel7_B c Set.univ (grid7.coords t) _ _ _ _ _ _ _ _ _ _ _ _ (fun h => hz ((hcond7_0 t).mp h)) (iblk7 V c 0 t) (iblk7 V c 1 t) _ _ _)
  all_goals
    isplitl [H0]; · iexact H0
    isplitl [H1]; · iexact H1
    isplitl [H2]; · iexists _; iexact H2
    isplitl [H3]; · iexists _; iexact H3
    isplitl [Hs0]; · iexact Hs0
    isplitl [Hs1]; · iexact Hs1
    iintro ⟨H0, H1, H2, H3, Hs0, Hs1⟩
    isplitl [Hs0 Hs1 Hrest Hp]
    · isplitr [Hp]
      · isplitl [Hs0]; · iexact Hs0
        isplitl [Hs1]; · iexact Hs1
        iexact Hrest
      · iexact Hp
    isplitl [Ho]; · iexact Ho
    isplitl [H0]; · iexact H0
    isplitl [H1]; · iexact H1
    isplitl [H2]; · iexact H2
    iexact H3

theorem body_obligation7 (c : Dev nD) : BodyObligation (dat7 (F := F) V c) (defs₀ (F := F)) Variants.none () Set.univ := fun t => by
  rw [bigSep_W7, bigSep_W7]
  simp only [after7_0, after7_1, after7_2, after7_3]
  show _ ⊢ wp _ _ _ (bodyAt7 t) _
  unfold bodyAt7
  exact pool_body V c t _ _ _ _ _ _ _ _ _ _ (before7_0 V c t) (before7_1 V c t) _

theorem hin7 (c : Dev nD) :
    iprop((∃ r, prngReg c r) ∗ Pipeline.prefHeld (pcfgs (F := F) 7).pre c (fun _ => fullShare) (adm (F := F) 7).1
        ∗ Pipeline.scopedRest (Pipeline.pin (pcfgs (F := F)) adm 7).spec c)
      ⊢ (dat7 V c).Φ 0 := by
  rw [show (dat7 V c).Φ 0 = PhiS7 V c 0 (Nat.zero_le _) from rfl, PhiS7_zero V c 0 _ rfl]; unfold Pipeline.ΦA
  iintro ⟨Hp, -, Hr⟩
  isplitl [Hr]; · iexact Hr
  iexact Hp

theorem hout7 (c : Dev nD) :
    (dat7 V c).Φ (Fin.last cfg7.N)
      ⊢ iprop((∃ r, prngReg c r) ∗ Pipeline.ownSems0 (fun k : PEmpty => k.elim) c
        ∗ Pipeline.scopedRest (Pipeline.pin (pcfgs (F := F)) adm 7).spec c) := by
  rw [Pipeline.ownSems0_none,
    show (dat7 V c).Φ (Fin.last cfg7.N) = PhiS7 V c (Fin.last cfg7.N).val (Nat.le_of_lt_succ (Fin.last cfg7.N).isLt) from rfl,
    PhiS7_pos V c _ _ (by rw [Fin.val_last]; have : cfg7.N = 100 := N_7; omega),
    show Pipeline.scopedRest (Pipeline.pin (pcfgs (F := F)) adm 7).spec c
      = Pipeline.scopedRest (Ix := Unit) (Name := ℕ) (U := UR sig nD τ) (Lvl := ℕ) (Val := Elt F) spec7 c from rfl,
    scopedRest7_split]
  simp only [acc7, scM7_0, scM7_1, owns_whole]
  iintro ⟨⟨Hs0, Hs1, Hrest⟩, Hp⟩
  isplitl [Hp]; · iexact Hp
  isplitr; · iempintro
  isplitl [Hs0 Hs1]
  · isplitl [Hs0]
    · iexists _; iexact Hs0
    · iexists _; iexact Hs1
  iexact Hrest

end Cert.KernelIdeal.Hand

end
-- ==== Proof.KI.Run.lean ====
import proofs.«429188_j41669772706622_1_alg».proof.Proof.Gen.KernelIdeal.Regions
import proofs.«429188_j41669772706622_1_alg».proof.Proof.KI.Reg0
import proofs.«429188_j41669772706622_1_alg».proof.Proof.KI.Mlp
import proofs.«429188_j41669772706622_1_alg».proof.Proof.KI.Reg7

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev Tat (W : Dev nD → Valuation τ sig (Elt F)) (c : Dev nD) : sProp 𝕄 :=
  iprop(StableHlo.held (c : Thread nD τ) (Pipeline.ucRefs τ sig) (W c) ∗ R c)

structure Plain {cfg : Cfg sig Λ₀} {c : Dev nD} (dat : Dat τ (Elt F) Unit ℕ (UR sig nD τ) ℕ cfg c)
    (V : (b : Ref sig .tc) → Buf (Elt F) ((c : Thread nD τ).loc b)) : Prop where
  hA : ∀ w, dat.A w = V (Pipeline.arrRef cfg.spec w)
  hq : ∀ w, dat.q w = fullShare
  ho : ∀ t, dat.owed t = 0
  hr : ∀ t, dat.recorded t = Set.univ

abbrev exitW {cfg : Cfg sig Λ₀} (dat : (c : Dev nD) → Dat τ (Elt F) Unit ℕ (UR sig nD τ) ℕ cfg c)
    (W : Dev nD → Valuation τ sig (Elt F)) (c : Dev nD) : Valuation τ sig (Elt F) :=
  Pipeline.withArrays cfg.spec c (W c) fun w => (dat c).arrAt w cfg.N

theorem exitW_arr {cfg : Cfg sig Λ₀} (dat : (c : Dev nD) → Dat τ (Elt F) Unit ℕ (UR sig nD τ) ℕ cfg c)
    (W : Dev nD → Valuation τ sig (Elt F)) (c : Dev nD) (hinj : Function.Injective (Pipeline.arrRef cfg.spec)) (w : Fin cfg.W) :
    exitW dat W c (Proc.devRef .tc (Pipeline.arrRef cfg.spec w)) = (dat c).arrAt w cfg.N :=
  Pipeline.withArrays_arr _ hinj c _ _ w

theorem exitW_keep {cfg : Cfg sig Λ₀} (dat : (c : Dev nD) → Dat τ (Elt F) Unit ℕ (UR sig nD τ) ℕ cfg c)
    (W : Dev nD → Valuation τ sig (Elt F)) (c : Dev nD) (hinj : Function.Injective (Pipeline.arrRef cfg.spec))
    (hA : ∀ w, (dat c).A w = W c (Pipeline.arrRef cfg.spec w)) (b : Ref sig .tc)
    (hb : ∀ w, Pipeline.arrRef cfg.spec w = b → (cfg.win w).isOut = false) :
    exitW dat W c (Proc.devRef .tc b) = W c (Proc.devRef .tc b) := by
  by_cases h : ∃ w, Pipeline.arrRef cfg.spec w = b
  · obtain ⟨w, rfl⟩ := h
    exact (exitW_arr dat W c hinj w).trans (((dat c).arrAt_in w (hb w rfl) _).trans (hA w))
  · exact Pipeline.withArrays_of_ne _ c _ _ b fun w e => h ⟨w, e⟩

section
variable (pd : (p : Fin 8) → (c : Dev nD) → Dat τ (Elt F) Unit ℕ (UR sig nD τ) ℕ (Pipeline.pin (pcfgs (F := F)) adm p) c)
  (p : Fin 8)

abbrev Hin (c : Dev nD) : Prop :=
  iprop((∃ r, prngReg c r) ∗ Pipeline.prefHeld (pcfgs (F := F) p).pre c (fun _ => fullShare) (adm (F := F) p).1
        ∗ Pipeline.scopedRest (Pipeline.pin (pcfgs (F := F)) adm p).spec c) ⊢ (pd p c).Φ 0
abbrev Hout (c : Dev nD) : Prop :=
  (pd p c).Φ (Fin.last (Pipeline.pin (pcfgs (F := F)) adm p).N)
      ⊢ iprop((∃ r, prngReg c r) ∗ Pipeline.ownSems0 (fun k : PEmpty => k.elim) c
        ∗ Pipeline.scopedRest (Pipeline.pin (pcfgs (F := F)) adm p).spec c)

theorem hinA (c : Dev nD) (h : (pd p c).Φ 0 = Pipeline.ΦA (cfgs p).spec c) : Hin pd p c := by
  unfold Hin; rw [h]; unfold Pipeline.ΦA
  iintro ⟨Hp, -, Hr⟩
  isplitl [Hr]; · iexact Hr
  iexact Hp

theorem houtA (c : Dev nD) (h : (pd p c).Φ (Fin.last _) = Pipeline.ΦA (cfgs p).spec c) : Hout pd p c := by
  unfold Hout; rw [Pipeline.ownSems0_none, h]; unfold Pipeline.ΦA
  iintro ⟨Hr, Hp⟩
  isplitl [Hp]; · iexact Hp
  isplitr; · iempintro
  iexact Hr

def regOf (lf : Pipeline.LaunchFacts (nD := nD) (τ := τ) cfgs p) (Wa Wx : Dev nD → Valuation τ sig (Elt F))
    (hd : ∀ c, Plain (pd p c) fun b => Wa c b) (hWx : ∀ c, Wx c = exitW (pd p) Wa c)
    (hb : ∀ c, BodyObligation (pd p c) (defs₀ (F := F)) 𝒱₀ () Set.univ)
    (hin : ∀ c, Hin pd p c) (hout : ∀ c, Hout pd p c) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (hd c).ho
  pre := Tat Wa
  post := Tat Wx
  X c := iprop(∃ r, prngReg c r)
  Y c := iprop(∃ r, prngReg c r)
  Z c := Pipeline.unscopedRest (Ix := Unit) (Name := ℕ) (U := UR sig nD τ) (Lvl := ℕ) (cfgs p).spec c fun b => Wa c b
  hentry c := by
    rw [Pipeline.ownSems0_none]
    have hsplit := Pipeline.arrays_of_unscopedBufs (p := p) (pcfgs (F := F)) adm pd lf.win lf.arr_whole c
      ((pd p c).share_full (hd c).hq) (fun b => Wa c b) (hd c).hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [(hd c).ho, (hd c).hr]
      icases HO with ⟨%W, HO⟩; iexists W; isplitr; · ipureintro; exact fun _ _ => Or.inl trivial
      iexact HO
    isplitl [Hp]; · iexact Hp
    iexact Hrest
  hin := hin
  hout := hout
  hexit c := by
    have hjoin := Pipeline.unscopedBufs_of_arrays (p := p) (pcfgs (F := F)) adm (Ix := Unit) (Name := ℕ) (U := UR sig nD τ) (Lvl := ℕ)
      lf.win lf.arr_whole c pd ((pd p c).share_full (hd c).hq)
      (fun b => Wa c b) (fun b => Wx c b) ((pd p c).arrAt · (cfgs p).N)
      (fun w => by rw [hWx c]; exact (exitW_arr (pd p) Wa c lf.win.arr_inj w).symm)
      (fun b hb => by rw [hWx c]; exact Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(hd c).ho]
    icases HO with ⟨%W, -, HO⟩; iexists W; iexact HO

end

section
variable (m : (ℓ : Loc nD τ sig) → Buf (Elt F) ℓ) (ρ : Dev nD → PrngReg)

abbrev tcv (W : Dev nD → Valuation τ sig (Elt F)) (c : Dev nD) (b : Ref sig .tc) : Buf (Elt F) ((c : Thread nD τ).loc b) := W c b

abbrev W0 : Dev nD → Valuation τ sig (Elt F) := fun c b => (s₀ m ρ).mem ((c : Dev nD), b)
abbrev W1 : Dev nD → Valuation τ sig (Elt F) := fun c => StableHlo.after hostOps0 (W0 m ρ c)
abbrev V1 := tcv (W1 m ρ)
def W2 : Dev nD → Valuation τ sig (Elt F) := exitW (dat0 (V1 m ρ)) (W1 m ρ)
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev W3 : Dev nD → Valuation τ sig (Elt F) := fun c => StableHlo.after hostOps1 (W2 m ρ c)
abbrev V3 := tcv (W3 m ρ)
def W4 : Dev nD → Valuation τ sig (Elt F) := exitW (dat1 (V3 m ρ)) (W3 m ρ)
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev W5 : Dev nD → Valuation τ sig (Elt F) := fun c => StableHlo.after hostOps2 (W4 m ρ c)
abbrev V5 := tcv (W5 m ρ)
def W6 : Dev nD → Valuation τ sig (Elt F) := exitW (dat2 (V5 m ρ)) (W5 m ρ)
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev W7 : Dev nD → Valuation τ sig (Elt F) := fun c => StableHlo.after hostOps3 (W6 m ρ c)
abbrev V7 := tcv (W7 m ρ)
def W8 : Dev nD → Valuation τ sig (Elt F) := exitW (dat3 (V7 m ρ)) (W7 m ρ)
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev W9 : Dev nD → Valuation τ sig (Elt F) := fun c => StableHlo.after hostOps4 (W8 m ρ c)
abbrev V9 := tcv (W9 m ρ)
def W10 : Dev nD → Valuation τ sig (Elt F) := exitW (dat4 (V9 m ρ)) (W9 m ρ)
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev W11 : Dev nD → Valuation τ sig (Elt F) := fun c => StableHlo.after hostOps5 (W10 m ρ c)
abbrev V11 := tcv (W11 m ρ)
def W12 : Dev nD → Valuation τ sig (Elt F) := exitW (dat5 (V11 m ρ)) (W11 m ρ)
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev W13 : Dev nD → Valuation τ sig (Elt F) := fun c => StableHlo.after hostOps6 (W12 m ρ c)
abbrev V13 := tcv (W13 m ρ)
def W14 : Dev nD → Valuation τ sig (Elt F) := exitW (dat6 (V13 m ρ)) (W13 m ρ)
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev W15 : Dev nD → Valuation τ sig (Elt F) := fun c => StableHlo.after hostOps7 (W14 m ρ c)
abbrev V15 := tcv (W15 m ρ)
def W16 : Dev nD → Valuation τ sig (Elt F) := exitW (dat7 (V15 m ρ)) (W15 m ρ)
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev W17 : Dev nD → Valuation τ sig (Elt F) := fun c => StableHlo.after hostOps8 (W16 m ρ c)

theorem W2_out (c : Dev nD) : W2 m ρ c (Proc.devRef .tc main_v1) = (dat0 (V1 m ρ) c).arrAt 2 cfg0.N :=
  exitW_arr (dat0 (V1 m ρ)) (W1 m ρ) c launch0.win.arr_inj 2
theorem W4_out (c : Dev nD) : W4 m ρ c (Proc.devRef .tc main_v26) = (dat1 (V3 m ρ) c).arrAt 6 cfg1.N :=
  exitW_arr (dat1 (V3 m ρ)) (W3 m ρ) c launch1.win.arr_inj 6
theorem W6_out (c : Dev nD) : W6 m ρ c (Proc.devRef .tc main_v47) = (dat2 (V5 m ρ) c).arrAt 6 cfg2.N :=
  exitW_arr (dat2 (V5 m ρ)) (W5 m ρ) c launch2.win.arr_inj 6
theorem W8_out (c : Dev nD) : W8 m ρ c (Proc.devRef .tc main_v68) = (dat3 (V7 m ρ) c).arrAt 6 cfg3.N :=
  exitW_arr (dat3 (V7 m ρ)) (W7 m ρ) c launch3.win.arr_inj 6
theorem W10_out (c : Dev nD) : W10 m ρ c (Proc.devRef .tc main_v89) = (dat4 (V9 m ρ) c).arrAt 6 cfg4.N :=
  exitW_arr (dat4 (V9 m ρ)) (W9 m ρ) c launch4.win.arr_inj 6
theorem W12_out (c : Dev nD) : W12 m ρ c (Proc.devRef .tc main_v110) = (dat5 (V11 m ρ) c).arrAt 6 cfg5.N :=
  exitW_arr (dat5 (V11 m ρ)) (W11 m ρ) c launch5.win.arr_inj 6
theorem W14_out (c : Dev nD) : W14 m ρ c (Proc.devRef .tc main_v131) = (dat6 (V13 m ρ) c).arrAt 6 cfg6.N :=
  exitW_arr (dat6 (V13 m ρ)) (W13 m ρ) c launch6.win.arr_inj 6
theorem W16_out0 (c : Dev nD) : W16 m ρ c (Proc.devRef .tc main_v133_0) = (dat7 (V15 m ρ) c).arrAt 2 cfg7.N :=
  exitW_arr (dat7 (V15 m ρ)) (W15 m ρ) c launch7.win.arr_inj 2
theorem W16_out1 (c : Dev nD) : W16 m ρ c (Proc.devRef .tc main_v133_1) = (dat7 (V15 m ρ) c).arrAt 3 cfg7.N :=
  exitW_arr (dat7 (V15 m ρ)) (W15 m ρ) c launch7.win.arr_inj 3

abbrev mainArgs : List (Ref sig .tc) := [main_arg0, main_arg1, main_arg2, main_arg3, main_arg4, main_arg5, main_arg6, main_arg7]

theorem W17_arg (c : Dev nD) (r : Ref sig .tc) (hr : r ∈ mainArgs) : W17 m ρ c (Proc.devRef .tc r) = m ((c : Thread nD τ).loc r) :=
  (StableHlo.after_of_writes_sub hostOps8 _ hostOps8_writes ((by decide : ∀ r ∈ mainArgs, r ∉ hostOps8_W) r hr)).trans <|
  (exitW_keep _ _ c launch7.win.arr_inj (fun _ => rfl) r ((by decide : ∀ r ∈ mainArgs, ∀ w, Pipeline.arrRef spec7 w = r → (cfg7.win w).isOut = false) r hr)).trans <|
  (StableHlo.after_of_writes_sub hostOps7 _ hostOps7_writes ((by decide : ∀ r ∈ mainArgs, r ∉ hostOps7_W) r hr)).trans <|
  (exitW_keep _ _ c launch6.win.arr_inj (fun _ => rfl) r ((by decide : ∀ r ∈ mainArgs, ∀ w, Pipeline.arrRef spec6 w = r → (cfg6.win w).isOut = false) r hr)).trans <|
  (StableHlo.after_of_writes_sub hostOps6 _ hostOps6_writes ((by decide : ∀ r ∈ mainArgs, r ∉ hostOps6_W) r hr)).trans <|
  (exitW_keep _ _ c launch5.win.arr_inj (fun _ => rfl) r ((by decide : ∀ r ∈ mainArgs, ∀ w, Pipeline.arrRef spec5 w = r → (cfg5.win w).isOut = false) r hr)).trans <|
  (StableHlo.after_of_writes_sub hostOps5 _ hostOps5_writes ((by decide : ∀ r ∈ mainArgs, r ∉ hostOps5_W) r hr)).trans <|
  (exitW_keep _ _ c launch4.win.arr_inj (fun _ => rfl) r ((by decide : ∀ r ∈ mainArgs, ∀ w, Pipeline.arrRef spec4 w = r → (cfg4.win w).isOut = false) r hr)).trans <|
  (StableHlo.after_of_writes_sub hostOps4 _ hostOps4_writes ((by decide : ∀ r ∈ mainArgs, r ∉ hostOps4_W) r hr)).trans <|
  (exitW_keep _ _ c launch3.win.arr_inj (fun _ => rfl) r ((by decide : ∀ r ∈ mainArgs, ∀ w, Pipeline.arrRef spec3 w = r → (cfg3.win w).isOut = false) r hr)).trans <|
  (StableHlo.after_of_writes_sub hostOps3 _ hostOps3_writes ((by decide : ∀ r ∈ mainArgs, r ∉ hostOps3_W) r hr)).trans <|
  (exitW_keep _ _ c launch2.win.arr_inj (fun _ => rfl) r ((by decide : ∀ r ∈ mainArgs, ∀ w, Pipeline.arrRef spec2 w = r → (cfg2.win w).isOut = false) r hr)).trans <|
  (StableHlo.after_of_writes_sub hostOps2 _ hostOps2_writes ((by decide : ∀ r ∈ mainArgs, r ∉ hostOps2_W) r hr)).trans <|
  (exitW_keep _ _ c launch1.win.arr_inj (fun _ => rfl) r ((by decide : ∀ r ∈ mainArgs, ∀ w, Pipeline.arrRef spec1 w = r → (cfg1.win w).isOut = false) r hr)).trans <|
  (StableHlo.after_of_writes_sub hostOps1 _ hostOps1_writes ((by decide : ∀ r ∈ mainArgs, r ∉ hostOps1_W) r hr)).trans <|
  (exitW_keep _ _ c launch0.win.arr_inj (fun _ => rfl) r ((by decide : ∀ r ∈ mainArgs, ∀ w, Pipeline.arrRef spec0 w = r → (cfg0.win w).isOut = false) r hr)).trans <|
  (StableHlo.after_of_writes_sub hostOps0 _ hostOps0_writes ((by decide : ∀ r ∈ mainArgs, r ∉ hostOps0_W) r hr))

def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)

def reg0 : Pipeline.RegionSeg (pcfgs (F := F)) adm (pdats m ρ) () defs₀ 𝒱₀ L lv 0 :=
  regOf (pdats m ρ) 0 launch0 (W1 m ρ) (W2 m ρ) (fun _ => ⟨fun _ => rfl, fun _ => rfl, fun _ => rfl, fun _ => rfl⟩) (fun _ => rfl)
    (body_obligation0 (V1 m ρ)) (fun c => hinA _ _ c rfl) (fun c => houtA _ _ c rfl)
def reg1 : Pipeline.RegionSeg (pcfgs (F := F)) adm (pdats m ρ) () defs₀ 𝒱₀ L lv 1 :=
  regOf (pdats m ρ) 1 launch1 (W3 m ρ) (W4 m ρ) (fun _ => ⟨fun _ => rfl, fun _ => rfl, fun _ => rfl, fun _ => rfl⟩) (fun _ => rfl)
    (body_obligation1 (V3 m ρ)) (fun c => hinA _ _ c rfl) (fun c => houtA _ _ c rfl)
def reg2 : Pipeline.RegionSeg (pcfgs (F := F)) adm (pdats m ρ) () defs₀ 𝒱₀ L lv 2 :=
  regOf (pdats m ρ) 2 launch2 (W5 m ρ) (W6 m ρ) (fun _ => ⟨fun _ => rfl, fun _ => rfl, fun _ => rfl, fun _ => rfl⟩) (fun _ => rfl)
    (body_obligation2 (V5 m ρ)) (fun c => hinA _ _ c rfl) (fun c => houtA _ _ c rfl)
def reg3 : Pipeline.RegionSeg (pcfgs (F := F)) adm (pdats m ρ) () defs₀ 𝒱₀ L lv 3 :=
  regOf (pdats m ρ) 3 launch3 (W7 m ρ) (W8 m ρ) (fun _ => ⟨fun _ => rfl, fun _ => rfl, fun _ => rfl, fun _ => rfl⟩) (fun _ => rfl)
    (body_obligation3 (V7 m ρ)) (fun c => hinA _ _ c rfl) (fun c => houtA _ _ c rfl)
def reg4 : Pipeline.RegionSeg (pcfgs (F := F)) adm (pdats m ρ) () defs₀ 𝒱₀ L lv 4 :=
  regOf (pdats m ρ) 4 launch4 (W9 m ρ) (W10 m ρ) (fun _ => ⟨fun _ => rfl, fun _ => rfl, fun _ => rfl, fun _ => rfl⟩) (fun _ => rfl)
    (body_obligation4 (V9 m ρ)) (fun c => hinA _ _ c rfl) (fun c => houtA _ _ c rfl)
def reg5 : Pipeline.RegionSeg (pcfgs (F := F)) adm (pdats m ρ) () defs₀ 𝒱₀ L lv 5 :=
  regOf (pdats m ρ) 5 launch5 (W11 m ρ) (W12 m ρ) (fun _ => ⟨fun _ => rfl, fun _ => rfl, fun _ => rfl, fun _ => rfl⟩) (fun _ => rfl)
    (body_obligation5 (V11 m ρ)) (fun c => hinA _ _ c rfl) (fun c => houtA _ _ c rfl)
def reg6 : Pipeline.RegionSeg (pcfgs (F := F)) adm (pdats m ρ) () defs₀ 𝒱₀ L lv 6 :=
  regOf (pdats m ρ) 6 launch6 (W13 m ρ) (W14 m ρ) (fun _ => ⟨fun _ => rfl, fun _ => rfl, fun _ => rfl, fun _ => rfl⟩) (fun _ => rfl)
    (body_obligation6 (V13 m ρ)) (fun c => hinA _ _ c rfl) (fun c => houtA _ _ c rfl)
def reg7 : Pipeline.RegionSeg (pcfgs (F := F)) adm (pdats m ρ) () defs₀ 𝒱₀ L lv 7 :=
  regOf (pdats m ρ) 7 launch7 (W15 m ρ) (W16 m ρ) (fun _ => ⟨fun _ => rfl, fun _ => rfl, fun _ => rfl, fun _ => rfl⟩) (fun _ => rfl)
    (body_obligation7 (V15 m ρ)) (hin7 (V15 m ρ)) (hout7 (V15 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)) ]
theorem main_run (c : Dev nD) : main (F := F) c = Pipeline.Seg.run (segs m ρ) := by
  rw [main_chain c, Pipeline.Seg.run_eq_chain]; rfl

theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W17 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Tat (W0 m ρ)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show Tat (W17 m ρ) c ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := hQ)

theorem run_all : θ_run defs (onTc (τ := τ) (main (F := F))) ⟨m, fun _ => 0, ρ⟩
    (fun r => ∀ c : Dev nD, ∀ b ∈ Pipeline.ucRefs τ sig, r.2.mem (((c : Thread nD τ)).1, b) = W17 m ρ c b) :=
  run_post m ρ fun _ h => h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_post m ρ fun s h c =>
    have A := fun b hu hb => (h c _ (mem_uc b hu)).trans (W17_arg m ρ c b hb)
    ⟨A main_arg0 (by decide) (by decide), A main_arg1 (by decide) (by decide), A main_arg2 (by decide) (by decide),
     A main_arg3 (by decide) (by decide), A main_arg4 (by decide) (by decide), A main_arg5 (by decide) (by decide),
     A main_arg6 (by decide) (by decide), A main_arg7 (by decide) (by decide)⟩

end

end Cert.KernelIdeal.Hand

end
-- ==== Proof.Ref.lean ====
import proofs.«429188_j41669772706622_1_alg».proof.Proof.RefRun
import proofs.«429188_j41669772706622_1_alg».proof.Defs
import proofs.«429188_j41669772706622_1_alg».proof.Proof.Gen.Pre_finite_inputs

noncomputable section

namespace Cert.ReferenceIdeal.HandRef

open Cert.ReferenceIdeal Cert.ReferenceIdeal.Gen Idealize.ShloMosaic Idealize.ShloMosaic.TcCoe Idealize.SL.Sem Idealize.ShloMosaic.StableHlo

variable {F : FTy → Type} [FloatOps F]

def rZero : FVec F S100000x128 .f32 :=
  broadcastInDim S100000x128 ![] bcast_S_S100000x128 (constant S_ .f32 0x00000000#32)

def rRelu (x : FVec F S100000x128 .f32) : FVec F S100000x128 .f32 := maximumf x rZero

-- A negative row number counts from the end: N is added to it.
def rWrap {s : Shape} (h : S_.BroadcastsInDim s ![]) (N : BitVec 32) (v : IVec s 32) : IVec s 32 :=
  select (cmpi .slt v (broadcastInDim s ![] h (constantI S_ 32 0#32))) (addi v (broadcastInDim s ![] h (constantI S_ 32 N))) v

def rBat (a2 : IVec S100000 32) : IVec S100000x1 32 := broadcastInDim S100000x1 ![0] bcast_S100000_S100000x1_0 a2

def rTok (a0 : IVec S100000 32) : IVec S100000x1 32 := rBat (rWrap bcast_S_S100000 128#32 a0)

def rEmb (a0 : IVec S100000 32) (a3 : FVec F S128x128 .f32) : FVec F S100000x128 .f32 :=
  Host.gather gather_S128x128_S100000x1_S100000x128_1_0_n_n_0_1_1128 a3 (rTok a0)

def rEnd (r : ℕ) (h : S2x600000.Slices ![r, 0] S1x600000) (a1 : IVec S2x600000 32) : IVec S600000 32 :=
  shapeCast _ (extractStridedSlice S1x600000 ![r, 0] a1 h) shapeCasts_S1x600000_S600000

-- Every edge's source row of x, summed into the edge's target row.
def rAgg (x : FVec F S100000x128 .f32) (a1 : IVec S2x600000 32) : FVec F S100000x128 .f32 :=
  Host.scatterAdd scatter_S100000x128_S600000x1_S600000x128_1_0_0_1 rZero
    (broadcastInDim S600000x1 ![0] bcast_S600000_S600000x1_0 (rEnd 1 slices_S2x600000_S1x600000_1_0 a1))
    (Host.gather gather_S100000x128_S600000x1_S600000x128_1_0_n_n_0_1_1128 x
      (broadcastInDim S600000x1 ![0] bcast_S600000_S600000x1_0
        (rWrap bcast_S_S600000 100000#32 (rEnd 0 slices_S2x600000_S1x600000_0_0 a1))))

def rMat (l : ℕ) (a : FVec F S6x128x128 .f32) (h : S6x128x128.Slices ![l, 0, 0] S1x128x128) : FVec F S128x128 .f32 :=
  shapeCast _ (extractStridedSlice S1x128x128 ![l, 0, 0] a h) shapeCasts_S1x128x128_S128x128

def rVec (l : ℕ) (a : FVec F S6x128 .f32) (h : S6x128.Slices ![l, 0] S1x128) : FVec F S128 .f32 :=
  shapeCast _ (extractStridedSlice S1x128 ![l, 0] a h) shapeCasts_S1x128_S128

def rRows (b : FVec F S128 .f32) : FVec F S100000x128 .f32 :=
  broadcastInDim S100000x128 ![0, 1] bcast_S1x128_S100000x128_0_1 (broadcastInDim S1x128 ![1] bcast_S128_S1x128_1 b)

-- relu (relu ((x + agg) · w1 + b1) · w2 + b2)
def rMlp (x agg : FVec F S100000x128 .f32) (w1 : FVec F S128x128 .f32) (b1 : FVec F S100000x128 .f32)
    (w2 : FVec F S128x128 .f32) (b2 : FVec F S100000x128 .f32) : FVec F S100000x128 .f32 :=
  rRelu (addf (Host.dotGeneral dot_S100000x128_S128x128_S100000x128_1_0_0_1_n_n none
    (rRelu (addf (Host.dotGeneral dot_S100000x128_S128x128_S100000x128_1_0_0_1_n_n none (addf x agg) w1) b1)) w2) b2)

def rLayer (l : ℕ) (h4 : S6x128x128.Slices ![l, 0, 0] S1x128x128) (h5 : S6x128.Slices ![l, 0] S1x128)
    (x : FVec F S100000x128 .f32) (a1 : IVec S2x600000 32)
    (a4 : FVec F S6x128x128 .f32) (a5 : FVec F S6x128 .f32) (a6 : FVec F S6x128x128 .f32) (a7 : FVec F S6x128 .f32) :
    FVec F S100000x128 .f32 :=
  rMlp x (rAgg x a1) (rMat l a4 h4) (rRows (rVec l a5 h5)) (rMat l a6 h4) (rRows (rVec l a7 h5))

def rSums (x : FVec F S100000x128 .f32) (a2 : IVec S100000 32) : FVec F S2000x128 .f32 :=
  Host.scatterAdd scatter_S2000x128_S100000x1_S100000x128_1_0_0_1
    (broadcastInDim S2000x128 ![] bcast_S_S2000x128 (constant S_ .f32 0x00000000#32)) (rBat a2) x

def rCounts (a2 : IVec S100000 32) : FVec F S2000 .f32 :=
  Host.scatterAdd scatter_S2000_S100000x1_S100000_n_0_0_1
    (broadcastInDim S2000 ![] bcast_S_S2000 (constant S_ .f32 0x00000000#32)) (rBat a2)
    (broadcastInDim S100000 ![] bcast_S_S100000 (constant S_ .f32 0x3F800000#32))

-- Each graph's sum over the larger of its count and one.
def rTail (x : FVec F S100000x128 .f32) (a2 : IVec S100000 32) : FVec F S2000x128 .f32 :=
  Host.divf (rSums x a2)
    (broadcastInDim S2000x128 ![0, 1] bcast_S2000x1_S2000x128_0_1
      (broadcastInDim S2000x1 ![0] bcast_S2000_S2000x1_0
        (maximumf (rCounts (F := F) a2) (broadcastInDim S2000 ![] bcast_S_S2000 (constant S_ .f32 0x3F800000#32)))))

def rBody (a0 : IVec S100000 32) (a1 : IVec S2x600000 32) (a3 : FVec F S128x128 .f32)
    (a4 : FVec F S6x128x128 .f32) (a5 : FVec F S6x128 .f32) (a6 : FVec F S6x128x128 .f32) (a7 : FVec F S6x128 .f32) :
    FVec F S100000x128 .f32 :=
  rLayer 5 slices_S6x128x128_S1x128x128_5_0_0 slices_S6x128_S1x128_5_0
    (rLayer 4 slices_S6x128x128_S1x128x128_4_0_0 slices_S6x128_S1x128_4_0
      (rLayer 3 slices_S6x128x128_S1x128x128_3_0_0 slices_S6x128_S1x128_3_0
        (rLayer 2 slices_S6x128x128_S1x128x128_2_0_0 slices_S6x128_S1x128_2_0
          (rLayer 1 slices_S6x128x128_S1x128x128_1_0_0 slices_S6x128_S1x128_1_0
            (rLayer 0 slices_S6x128x128_S1x128x128_0_0_0 slices_S6x128_S1x128_0_0 (rEmb a0 a3) a1 a4 a5 a6 a7)
            a1 a4 a5 a6 a7) a1 a4 a5 a6 a7) a1 a4 a5 a6 a7) a1 a4 a5 a6 a7) a1 a4 a5 a6 a7

def refNet (a0 : IVec S100000 32) (a1 : IVec S2x600000 32) (a2 : IVec S100000 32) (a3 : FVec F S128x128 .f32)
    (a4 : FVec F S6x128x128 .f32) (a5 : FVec F S6x128 .f32) (a6 : FVec F S6x128x128 .f32) (a7 : FVec F S6x128 .f32) :
    FVec F S2000x128 .f32 :=
  rTail (rBody a0 a1 a3 a4 a5 a6 a7) a2

set_option maxRecDepth 8192 in
-- The run's result term is the same operations in the same order, with the repeated parts named.
theorem ref_out (m : (ℓ : Loc nD τ sig) → Buf (Elt F) ℓ) (c : Dev nD) :
    Cert.ReferenceIdeal.ValueP.res_main_v196 (F := F) m c
      = refNet (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v196
  rfl

theorem ref_frame : Cert.frame_ReferenceIdeal :=
  fun m ρ _ => (θ_run Cert.ReferenceIdeal.defs _ _).mono (fun _ h c => (h c).2)
    (Cert.ReferenceIdeal.ValueP.run (F := Ideal) m ρ)

end Cert.ReferenceIdeal.HandRef

end
-- ==== Proof.Pre.lean ====
import proofs.«429188_j41669772706622_1_alg».proof.Defs
import Idealize.ShloMosaic.Lib.ReduceAll
import Idealize.ShloMosaic.Lib.ValueIdx

noncomputable section

namespace Cert.Proof.Pre

open Idealize.ShloMosaic Idealize.ShloMosaic.ValueIdx Idealize.SL.Sem
open Cert.Pre_finite_inputs (S100000 S_)

variable [hFacts : Cert.Pre_finite_inputs.Facts]

instance : Subsingleton S_.Idx := ⟨fun a b => funext fun d => d.elim0⟩

-- A conjunction of bits that is 1 has every conjunct 1, a reduction by `and` that is 1 met only 1s, and a signed compare bit that is 1 is the signed order.
theorem tok_range_mem (m : (ℓ : Loc Cert.KernelIdeal.nD Cert.KernelIdeal.τ Cert.KernelIdeal.sig) → Buf (Elt Ideal) ℓ)
    (h : Cert.Pre_KernelIdeal m) (c : Dev Cert.KernelIdeal.nD) (n : S100000.Idx) :
    0 ≤ (m ((c.tc : Thread Cert.KernelIdeal.nD Cert.KernelIdeal.τ).loc Cert.KernelIdeal.main_arg0) n).toInt ∧
      (m ((c.tc : Thread Cert.KernelIdeal.nD Cert.KernelIdeal.τ).loc Cert.KernelIdeal.main_arg0) n).toInt < 128 := by
  have e := congrFun (h c) ix0
  unfold Cert.Pre_finite_inputs.fn Cert.Pre_finite_inputs.fn_part1 at e
  simp only [andi, IntOp.andi_eq_one] at e
  exact ⟨IntOp.cmpi_sge.1 (Host.reduce_andi_all _ _ _ _ ix0 e.1.2 n), IntOp.cmpi_slt.1 (Host.reduce_andi_all _ _ _ _ ix0 e.2 n)⟩

end Cert.Proof.Pre

end
-- ==== Proof.Val.Host.lean ====
import proofs.«429188_j41669772706622_1_alg».proof.Proof.Gen.KernelIdeal.Launch
import proofs.«429188_j41669772706622_1_alg».proof.Proof.Gen.KernelIdeal.Regions
import Idealize.ShloMosaic.Lib.StableHlo.Run

set_option maxRecDepth 16384

noncomputable section

namespace Cert.KernelIdeal.HandVal

open Cert.KernelIdeal.Gen
open Idealize.ShloMosaic Idealize.ShloMosaic.TcCoe

variable {F : FTy → Type} [FloatOps F]

abbrev Arr (F : FTy → Type) (S : Shape) (e : EltTy) : Type := (⟨S, e⟩ : BufTy).Contents (Elt F)

def kCol (a : Arr F S100000 .i32) : Arr F S100000x1 .i32 :=
  fun i => shapeCast S100000x1 a shapeCasts_S100000_S100000x1 i

def kTok (a0 : Arr F S100000 .i32) : Arr F S100000x1 .i32 := kCol a0

def kBat (a2 : Arr F S100000 .i32) : Arr F S100000x1 .i32 := kCol a2

def kSrc (e : Arr F S2x600000 .i32) : Arr F S600000 .i32 :=
  fun i => shapeCast S600000 (extractStridedSlice S1x600000 ![0, 0] e slices_S2x600000_S1x600000_0_0) shapeCasts_S1x600000_S600000 i

def kDst (e : Arr F S2x600000 .i32) : Arr F S600000 .i32 :=
  fun i => shapeCast S600000 (extractStridedSlice S1x600000 ![1, 0] e slices_S2x600000_S1x600000_1_0) shapeCasts_S1x600000_S600000 i

def kWrap (s : Arr F S600000 .i32) : Arr F S600000 .i32 :=
  select (cmpi .slt s (broadcastInDim S600000 ![] bcast_S_S600000 (constantI S_ 32 0#32 : Arr F S_ .i32)))
    (addi s (broadcastInDim S600000 ![] bcast_S_S600000 (constantI S_ 32 100000#32 : Arr F S_ .i32))) s

def kAggSD (x : Arr F S100000x128 .f32) (s d : Arr F S600000 .i32) : Arr F S100000x128 .f32 :=
  Host.scatterAdd scatter_S100000x128_S600000x1_S600000x128_1_0_0_1
    (broadcastInDim S100000x128 ![] bcast_S_S100000x128 (constant S_ .f32 0x00000000#32 : Arr F S_ .f32))
    (broadcastInDim S600000x1 ![0] bcast_S600000_S600000x1_0 d)
    (Host.gather gather_S100000x128_S600000x1_S600000x128_1_0_n_n_0_1_1128 x
      (broadcastInDim S600000x1 ![0] bcast_S600000_S600000x1_0 (kWrap s)))

def kAgg (x : Arr F S100000x128 .f32) (e : Arr F S2x600000 .i32) : Arr F S100000x128 .f32 := kAggSD x (kSrc e) (kDst e)

def kMat (o : Fin 3 → ℕ) (h : S6x128x128.Slices o S1x128x128) (a : Arr F S6x128x128 .f32) : Arr F S128x128 .f32 :=
  fun i => shapeCast S128x128 (extractStridedSlice S1x128x128 o a h) shapeCasts_S1x128x128_S128x128 i

def kRow (o : Fin 2 → ℕ) (h : S6x128.Slices o S1x128) (a : Arr F S6x128 .f32) : Arr F S1x128 .f32 :=
  fun i => shapeCast S1x128 (fun j => shapeCast S128 (extractStridedSlice S1x128 o a h) shapeCasts_S1x128_S128 j) shapeCasts_S128_S1x128 i

def kW0 (a : Arr F S6x128x128 .f32) : Arr F S128x128 .f32 := kMat ![0, 0, 0] slices_S6x128x128_S1x128x128_0_0_0 a
def kW1 (a : Arr F S6x128x128 .f32) : Arr F S128x128 .f32 := kMat ![1, 0, 0] slices_S6x128x128_S1x128x128_1_0_0 a
def kW2 (a : Arr F S6x128x128 .f32) : Arr F S128x128 .f32 := kMat ![2, 0, 0] slices_S6x128x128_S1x128x128_2_0_0 a
def kW3 (a : Arr F S6x128x128 .f32) : Arr F S128x128 .f32 := kMat ![3, 0, 0] slices_S6x128x128_S1x128x128_3_0_0 a
def kW4 (a : Arr F S6x128x128 .f32) : Arr F S128x128 .f32 := kMat ![4, 0, 0] slices_S6x128x128_S1x128x128_4_0_0 a
def kW5 (a : Arr F S6x128x128 .f32) : Arr F S128x128 .f32 := kMat ![5, 0, 0] slices_S6x128x128_S1x128x128_5_0_0 a
def kB0 (a : Arr F S6x128 .f32) : Arr F S1x128 .f32 := kRow ![0, 0] slices_S6x128_S1x128_0_0 a
def kB1 (a : Arr F S6x128 .f32) : Arr F S1x128 .f32 := kRow ![1, 0] slices_S6x128_S1x128_1_0 a
def kB2 (a : Arr F S6x128 .f32) : Arr F S1x128 .f32 := kRow ![2, 0] slices_S6x128_S1x128_2_0 a
def kB3 (a : Arr F S6x128 .f32) : Arr F S1x128 .f32 := kRow ![3, 0] slices_S6x128_S1x128_3_0 a
def kB4 (a : Arr F S6x128 .f32) : Arr F S1x128 .f32 := kRow ![4, 0] slices_S6x128_S1x128_4_0 a
def kB5 (a : Arr F S6x128 .f32) : Arr F S1x128 .f32 := kRow ![5, 0] slices_S6x128_S1x128_5_0 a

def kTail (sums : Arr F S2048x128 .f32) (counts : Arr F S2048x1 .f32) : Arr F S2000x128 .f32 :=
  Host.divf (extractStridedSlice S2000x128 ![0, 0] sums slices_S2048x128_S2000x128_0_0)
    (broadcastInDim S2000x128 ![0, 1] bcast_S2000x1_S2000x128_0_1
      (maximumf (extractStridedSlice S2000x1 ![0, 0] counts slices_S2048x1_S2000x1_0_0)
        (broadcastInDim S2000x1 ![] bcast_S_S2000x1 (constant S_ .f32 0x3F800000#32 : Arr F S_ .f32))))

variable (W : Valuation τ sig (Elt F))

theorem host0_tok : StableHlo.after hostOps0 W (Proc.devRef .tc main_v0) = kTok (W (Proc.devRef .tc main_arg0)) := by after_results; rfl

theorem host1_src : StableHlo.after hostOps1 W (Proc.devRef .tc main_v3) = kSrc (W (Proc.devRef .tc main_arg1)) := by after_results; rfl
theorem host1_dst : StableHlo.after hostOps1 W (Proc.devRef .tc main_v5) = kDst (W (Proc.devRef .tc main_arg1)) := by after_results; rfl
theorem host1_agg : StableHlo.after hostOps1 W (Proc.devRef .tc main_v15) = kAgg (W (Proc.devRef .tc main_v1)) (W (Proc.devRef .tc main_arg1)) := by after_results_simp; rfl
theorem host1_w1 : StableHlo.after hostOps1 W (Proc.devRef .tc main_v17) = kW0 (W (Proc.devRef .tc main_arg4)) := by after_results; rfl
theorem host1_b1 : StableHlo.after hostOps1 W (Proc.devRef .tc main_v24) = kB0 (W (Proc.devRef .tc main_arg5)) := by after_results; rfl
theorem host1_w2 : StableHlo.after hostOps1 W (Proc.devRef .tc main_v21) = kW0 (W (Proc.devRef .tc main_arg6)) := by after_results; rfl
theorem host1_b2 : StableHlo.after hostOps1 W (Proc.devRef .tc main_v25) = kB0 (W (Proc.devRef .tc main_arg7)) := by after_results; rfl

theorem host2_agg : StableHlo.after hostOps2 W (Proc.devRef .tc main_v36) = kAggSD (W (Proc.devRef .tc main_v26)) (W (Proc.devRef .tc main_v3)) (W (Proc.devRef .tc main_v5)) := by after_results_simp; rfl
theorem host2_w1 : StableHlo.after hostOps2 W (Proc.devRef .tc main_v38) = kW1 (W (Proc.devRef .tc main_arg4)) := by after_results; rfl
theorem host2_b1 : StableHlo.after hostOps2 W (Proc.devRef .tc main_v45) = kB1 (W (Proc.devRef .tc main_arg5)) := by after_results; rfl
theorem host2_w2 : StableHlo.after hostOps2 W (Proc.devRef .tc main_v42) = kW1 (W (Proc.devRef .tc main_arg6)) := by after_results; rfl
theorem host2_b2 : StableHlo.after hostOps2 W (Proc.devRef .tc main_v46) = kB1 (W (Proc.devRef .tc main_arg7)) := by after_results; rfl

theorem host3_agg : StableHlo.after hostOps3 W (Proc.devRef .tc main_v57) = kAggSD (W (Proc.devRef .tc main_v47)) (W (Proc.devRef .tc main_v3)) (W (Proc.devRef .tc main_v5)) := by after_results_simp; rfl
theorem host3_w1 : StableHlo.after hostOps3 W (Proc.devRef .tc main_v59) = kW2 (W (Proc.devRef .tc main_arg4)) := by after_results; rfl
theorem host3_b1 : StableHlo.after hostOps3 W (Proc.devRef .tc main_v66) = kB2 (W (Proc.devRef .tc main_arg5)) := by after_results; rfl
theorem host3_w2 : StableHlo.after hostOps3 W (Proc.devRef .tc main_v63) = kW2 (W (Proc.devRef .tc main_arg6)) := by after_results; rfl
theorem host3_b2 : StableHlo.after hostOps3 W (Proc.devRef .tc main_v67) = kB2 (W (Proc.devRef .tc main_arg7)) := by after_results; rfl

theorem host4_agg : StableHlo.after hostOps4 W (Proc.devRef .tc main_v78) = kAggSD (W (Proc.devRef .tc main_v68)) (W (Proc.devRef .tc main_v3)) (W (Proc.devRef .tc main_v5)) := by after_results_simp; rfl
theorem host4_w1 : StableHlo.after hostOps4 W (Proc.devRef .tc main_v80) = kW3 (W (Proc.devRef .tc main_arg4)) := by after_results; rfl
theorem host4_b1 : StableHlo.after hostOps4 W (Proc.devRef .tc main_v87) = kB3 (W (Proc.devRef .tc main_arg5)) := by after_results; rfl
theorem host4_w2 : StableHlo.after hostOps4 W (Proc.devRef .tc main_v84) = kW3 (W (Proc.devRef .tc main_arg6)) := by after_results; rfl
theorem host4_b2 : StableHlo.after hostOps4 W (Proc.devRef .tc main_v88) = kB3 (W (Proc.devRef .tc main_arg7)) := by after_results; rfl

theorem host5_agg : StableHlo.after hostOps5 W (Proc.devRef .tc main_v99) = kAggSD (W (Proc.devRef .tc main_v89)) (W (Proc.devRef .tc main_v3)) (W (Proc.devRef .tc main_v5)) := by after_results_simp; rfl
theorem host5_w1 : StableHlo.after hostOps5 W (Proc.devRef .tc main_v101) = kW4 (W (Proc.devRef .tc main_arg4)) := by after_results; rfl
theorem host5_b1 : StableHlo.after hostOps5 W (Proc.devRef .tc main_v108) = kB4 (W (Proc.devRef .tc main_arg5)) := by after_results; rfl
theorem host5_w2 : StableHlo.after hostOps5 W (Proc.devRef .tc main_v105) = kW4 (W (Proc.devRef .tc main_arg6)) := by after_results; rfl
theorem host5_b2 : StableHlo.after hostOps5 W (Proc.devRef .tc main_v109) = kB4 (W (Proc.devRef .tc main_arg7)) := by after_results; rfl

theorem host6_agg : StableHlo.after hostOps6 W (Proc.devRef .tc main_v120) = kAggSD (W (Proc.devRef .tc main_v110)) (W (Proc.devRef .tc main_v3)) (W (Proc.devRef .tc main_v5)) := by after_results_simp; rfl
theorem host6_w1 : StableHlo.after hostOps6 W (Proc.devRef .tc main_v122) = kW5 (W (Proc.devRef .tc main_arg4)) := by after_results; rfl
theorem host6_b1 : StableHlo.after hostOps6 W (Proc.devRef .tc main_v129) = kB5 (W (Proc.devRef .tc main_arg5)) := by after_results; rfl
theorem host6_w2 : StableHlo.after hostOps6 W (Proc.devRef .tc main_v126) = kW5 (W (Proc.devRef .tc main_arg6)) := by after_results; rfl
theorem host6_b2 : StableHlo.after hostOps6 W (Proc.devRef .tc main_v130) = kB5 (W (Proc.devRef .tc main_arg7)) := by after_results; rfl

theorem host7_bat : StableHlo.after hostOps7 W (Proc.devRef .tc main_v132) = kBat (W (Proc.devRef .tc main_arg2)) := by after_results; rfl

theorem host8_out : StableHlo.after hostOps8 W (Proc.devRef .tc main_v139) = kTail (W (Proc.devRef .tc main_v133_0)) (W (Proc.devRef .tc main_v133_1)) := by after_results; rfl

theorem kAgg_eq (x : Arr F S100000x128 .f32) (e : Arr F S2x600000 .i32) : kAggSD x (kSrc e) (kDst e) = kAgg x e := rfl

end Cert.KernelIdeal.HandVal

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Nodes : Shape := ⟨2, ![100000, 128]⟩
abbrev NodeCol : Shape := ⟨2, ![100000, 1]⟩
abbrev Sq : Shape := ⟨2, ![128, 128]⟩
abbrev Row : Shape := ⟨2, ![1, 128]⟩
abbrev Pooled : Shape := ⟨2, ![2048, 128]⟩
abbrev PooledCol : Shape := ⟨2, ![2048, 1]⟩

def hot (w : BitVec 32) (k : ℕ) : EReal := if w = BitVec.ofNat 32 k then 1 else 0

def embArr (tok : NodeCol.Idx → BitVec 32) (emb : Sq.Idx → EReal) : Nodes.Idx → EReal :=
  fun i => ∑ k : Fin 128, hot (tok (ix2 (i 0) 0)) k.val * emb (ix2 k (i 1))

def mlpArr (x agg : Nodes.Idx → EReal) (w1 : Sq.Idx → EReal) (b1 : Row.Idx → EReal) (w2 : Sq.Idx → EReal)
    (b2 : Row.Idx → EReal) : Nodes.Idx → EReal :=
  fun i => max ((∑ k : Fin 128,
      max ((∑ l : Fin 128, (x (ix2 (i 0) l) + agg (ix2 (i 0) l)) * w1 (ix2 l k)) + b1 (ix2 0 k)) 0 * w2 (ix2 k (i 1)))
    + b2 (ix2 0 (i 1))) 0

def poolSums (x : Nodes.Idx → EReal) (bat : NodeCol.Idx → BitVec 32) : Pooled.Idx → EReal :=
  fun i => ∑ n : Fin 100000, hot (bat (ix2 n 0)) (i 0).val * x (ix2 n (i 1))

def poolCounts (bat : NodeCol.Idx → BitVec 32) : PooledCol.Idx → EReal :=
  fun i => ∑ n : Fin 100000, hot (bat (ix2 n 0)) (i 0).val * 1

end Cert.Spec

end
-- ==== Proof.Val.Kernel.lean ====
import proofs.«429188_j41669772706622_1_alg».proof.Proof.Val.Host
import proofs.«429188_j41669772706622_1_alg».proof.Proof.Spec

set_option maxRecDepth 16384

noncomputable section

namespace Cert.KernelIdeal.HandVal

open Cert.KernelIdeal.Gen
open Idealize.ShloMosaic Idealize.ShloMosaic.TcCoe

section Net

variable (a0 : Arr Ideal S100000 .i32) (a1 : Arr Ideal S2x600000 .i32) (a2 : Arr Ideal S100000 .i32) (a3 : Arr Ideal S128x128 .f32) (a4 : Arr Ideal S6x128x128 .f32) (a5 : Arr Ideal S6x128 .f32) (a6 : Arr Ideal S6x128x128 .f32) (a7 : Arr Ideal S6x128 .f32)

def kX0 : Arr Ideal S100000x128 .f32 := Cert.Spec.embArr (kTok a0) a3

-- One layer on features `x`: the dense part of `x` and its neighbours' aggregate, the parameters cut out by `w` and `b`.
def kLay (w : Arr Ideal S6x128x128 .f32 → Arr Ideal S128x128 .f32) (b : Arr Ideal S6x128 .f32 → Arr Ideal S1x128 .f32)
    (x : Arr Ideal S100000x128 .f32) : Arr Ideal S100000x128 .f32 :=
  Cert.Spec.mlpArr x (kAgg x a1) (w a4) (b a5) (w a6) (b a7)

def kL0 := kLay a1 a4 a5 a6 a7 kW0 kB0
def kL1 := kLay a1 a4 a5 a6 a7 kW1 kB1
def kL2 := kLay a1 a4 a5 a6 a7 kW2 kB2
def kL3 := kLay a1 a4 a5 a6 a7 kW3 kB3
def kL4 := kLay a1 a4 a5 a6 a7 kW4 kB4
def kL5 := kLay a1 a4 a5 a6 a7 kW5 kB5

def kX1 : Arr Ideal S100000x128 .f32 := kL0 a1 a4 a5 a6 a7 (kX0 a0 a3)
def kX2 : Arr Ideal S100000x128 .f32 := kL1 a1 a4 a5 a6 a7 (kX1 a0 a1 a3 a4 a5 a6 a7)
def kX3 : Arr Ideal S100000x128 .f32 := kL2 a1 a4 a5 a6 a7 (kX2 a0 a1 a3 a4 a5 a6 a7)
def kX4 : Arr Ideal S100000x128 .f32 := kL3 a1 a4 a5 a6 a7 (kX3 a0 a1 a3 a4 a5 a6 a7)
def kX5 : Arr Ideal S100000x128 .f32 := kL4 a1 a4 a5 a6 a7 (kX4 a0 a1 a3 a4 a5 a6 a7)
def kX6 : Arr Ideal S100000x128 .f32 := kL5 a1 a4 a5 a6 a7 (kX5 a0 a1 a3 a4 a5 a6 a7)

def kernelNet : Arr Ideal S2000x128 .f32 :=
  kTail (Cert.Spec.poolSums (kX6 a0 a1 a3 a4 a5 a6 a7) (kBat a2)) (Cert.Spec.poolCounts (kBat a2))

end Net

-- The references each of the seventeen items may change.
noncomputable def wrT : List (List (Ref sig .tc)) :=
  [hostOps0_W, [main_v0, main_arg3, main_v1], hostOps1_W, [main_v1, main_v15, main_v17, main_v24, main_v21, main_v25, main_v26],
   hostOps2_W, [main_v26, main_v36, main_v38, main_v45, main_v42, main_v46, main_v47], hostOps3_W, [main_v47, main_v57, main_v59, main_v66, main_v63, main_v67, main_v68],
   hostOps4_W, [main_v68, main_v78, main_v80, main_v87, main_v84, main_v88, main_v89], hostOps5_W, [main_v89, main_v99, main_v101, main_v108, main_v105, main_v109, main_v110],
   hostOps6_W, [main_v110, main_v120, main_v122, main_v129, main_v126, main_v130, main_v131], hostOps7_W, [main_v131, main_v132, main_v133_0, main_v133_1], hostOps8_W]

structure RunFacts (W : ℕ → Valuation τ sig (Elt Ideal)) : Prop where
  host0 : W 1 = StableHlo.after hostOps0 (W 0)
  host1 : W 3 = StableHlo.after hostOps1 (W 2)
  host2 : W 5 = StableHlo.after hostOps2 (W 4)
  host3 : W 7 = StableHlo.after hostOps3 (W 6)
  host4 : W 9 = StableHlo.after hostOps4 (W 8)
  host5 : W 11 = StableHlo.after hostOps5 (W 10)
  host6 : W 13 = StableHlo.after hostOps6 (W 12)
  host7 : W 15 = StableHlo.after hostOps7 (W 14)
  host8 : W 17 = StableHlo.after hostOps8 (W 16)
  frame : ∀ j b, b ∉ wrT.getD j [] → W (j + 1) (Proc.devRef .tc b) = W j (Proc.devRef .tc b)
  out0 : W 2 (Proc.devRef .tc main_v1) = Cert.Spec.embArr (W 1 (Proc.devRef .tc main_v0)) (W 1 (Proc.devRef .tc main_arg3))
  out1 : W 4 (Proc.devRef .tc main_v26) = Cert.Spec.mlpArr (W 3 (Proc.devRef .tc main_v1)) (W 3 (Proc.devRef .tc main_v15)) (W 3 (Proc.devRef .tc main_v17))
    (W 3 (Proc.devRef .tc main_v24)) (W 3 (Proc.devRef .tc main_v21)) (W 3 (Proc.devRef .tc main_v25))
  out2 : W 6 (Proc.devRef .tc main_v47) = Cert.Spec.mlpArr (W 5 (Proc.devRef .tc main_v26)) (W 5 (Proc.devRef .tc main_v36)) (W 5 (Proc.devRef .tc main_v38))
    (W 5 (Proc.devRef .tc main_v45)) (W 5 (Proc.devRef .tc main_v42)) (W 5 (Proc.devRef .tc main_v46))
  out3 : W 8 (Proc.devRef .tc main_v68) = Cert.Spec.mlpArr (W 7 (Proc.devRef .tc main_v47)) (W 7 (Proc.devRef .tc main_v57)) (W 7 (Proc.devRef .tc main_v59))
    (W 7 (Proc.devRef .tc main_v66)) (W 7 (Proc.devRef .tc main_v63)) (W 7 (Proc.devRef .tc main_v67))
  out4 : W 10 (Proc.devRef .tc main_v89) = Cert.Spec.mlpArr (W 9 (Proc.devRef .tc main_v68)) (W 9 (Proc.devRef .tc main_v78)) (W 9 (Proc.devRef .tc main_v80))
    (W 9 (Proc.devRef .tc main_v87)) (W 9 (Proc.devRef .tc main_v84)) (W 9 (Proc.devRef .tc main_v88))
  out5 : W 12 (Proc.devRef .tc main_v110) = Cert.Spec.mlpArr (W 11 (Proc.devRef .tc main_v89)) (W 11 (Proc.devRef .tc main_v99)) (W 11 (Proc.devRef .tc main_v101))
    (W 11 (Proc.devRef .tc main_v108)) (W 11 (Proc.devRef .tc main_v105)) (W 11 (Proc.devRef .tc main_v109))
  out6 : W 14 (Proc.devRef .tc main_v131) = Cert.Spec.mlpArr (W 13 (Proc.devRef .tc main_v110)) (W 13 (Proc.devRef .tc main_v120)) (W 13 (Proc.devRef .tc main_v122))
    (W 13 (Proc.devRef .tc main_v129)) (W 13 (Proc.devRef .tc main_v126)) (W 13 (Proc.devRef .tc main_v130))
  out7s : W 16 (Proc.devRef .tc main_v133_0) = Cert.Spec.poolSums (W 15 (Proc.devRef .tc main_v131)) (W 15 (Proc.devRef .tc main_v132))
  out7c : W 16 (Proc.devRef .tc main_v133_1) = Cert.Spec.poolCounts (W 15 (Proc.devRef .tc main_v132))

namespace RunFacts

variable {W : ℕ → Valuation τ sig (Elt Ideal)} (R : RunFacts W)
include R

-- A buffer none of the items `i, …, j-1` may write is at boundary `j` what it was at boundary `i`.
theorem carry (b : Ref sig .tc) (i j : ℕ) (h : i ≤ j ∧ ∀ k < j, i ≤ k → b ∉ wrT.getD k []) :
    W j (Proc.devRef .tc b) = W i (Proc.devRef .tc b) := by
  obtain ⟨hij, h⟩ := h
  induction j, hij using Nat.le_induction with
  | base => rfl
  | succ j hij ih =>
    rw [R.frame j b (h j (Nat.lt_succ_self j) hij)]
    exact ih fun k hk => h k (Nat.lt_succ_of_lt hk)

theorem src3 : W 3 (Proc.devRef .tc main_v3) = kSrc (W 0 (Proc.devRef .tc main_arg1)) := by
  rw [R.host1, host1_src, R.carry main_arg1 0 2 (by decide)]
theorem dst3 : W 3 (Proc.devRef .tc main_v5) = kDst (W 0 (Proc.devRef .tc main_arg1)) := by
  rw [R.host1, host1_dst, R.carry main_arg1 0 2 (by decide)]

theorem feat0 : W 2 (Proc.devRef .tc main_v1) = kX0 (W 0 (Proc.devRef .tc main_arg0)) (W 0 (Proc.devRef .tc main_arg3)) := by
  rw [kX0, R.out0, R.carry main_arg3 0 1 (by decide), R.host0, host0_tok]

theorem feat1 : W 4 (Proc.devRef .tc main_v26) = kX1 (W 0 (Proc.devRef .tc main_arg0)) (W 0 (Proc.devRef .tc main_arg1)) (W 0 (Proc.devRef .tc main_arg3)) (W 0 (Proc.devRef .tc main_arg4)) (W 0 (Proc.devRef .tc main_arg5)) (W 0 (Proc.devRef .tc main_arg6)) (W 0 (Proc.devRef .tc main_arg7)) := by
  rw [kX1, kL0, kLay, R.out1, R.carry main_v1 2 3 (by decide), R.host1, host1_agg, host1_w1, host1_b1, host1_w2, host1_b2,
    R.feat0, R.carry main_arg1 0 2 (by decide),
    R.carry main_arg4 0 2 (by decide), R.carry main_arg5 0 2 (by decide), R.carry main_arg6 0 2 (by decide), R.carry main_arg7 0 2 (by decide)]

theorem feat2 : W 6 (Proc.devRef .tc main_v47) = kX2 (W 0 (Proc.devRef .tc main_arg0)) (W 0 (Proc.devRef .tc main_arg1)) (W 0 (Proc.devRef .tc main_arg3)) (W 0 (Proc.devRef .tc main_arg4)) (W 0 (Proc.devRef .tc main_arg5)) (W 0 (Proc.devRef .tc main_arg6)) (W 0 (Proc.devRef .tc main_arg7)) := by
  rw [kX2, kL1, kLay, R.out2, R.carry main_v26 4 5 (by decide), R.host2, host2_agg, host2_w1, host2_b1, host2_w2, host2_b2,
    R.feat1, R.carry main_v3 3 4 (by decide), R.carry main_v5 3 4 (by decide), R.src3, R.dst3, kAgg_eq,
    R.carry main_arg4 0 4 (by decide), R.carry main_arg5 0 4 (by decide), R.carry main_arg6 0 4 (by decide), R.carry main_arg7 0 4 (by decide)]

theorem feat3 : W 8 (Proc.devRef .tc main_v68) = kX3 (W 0 (Proc.devRef .tc main_arg0)) (W 0 (Proc.devRef .tc main_arg1)) (W 0 (Proc.devRef .tc main_arg3)) (W 0 (Proc.devRef .tc main_arg4)) (W 0 (Proc.devRef .tc main_arg5)) (W 0 (Proc.devRef .tc main_arg6)) (W 0 (Proc.devRef .tc main_arg7)) := by
  rw [kX3, kL2, kLay, R.out3, R.carry main_v47 6 7 (by decide), R.host3, host3_agg, host3_w1, host3_b1, host3_w2, host3_b2,
    R.feat2, R.carry main_v3 3 6 (by decide), R.carry main_v5 3 6 (by decide), R.src3, R.dst3, kAgg_eq,
    R.carry main_arg4 0 6 (by decide), R.carry main_arg5 0 6 (by decide), R.carry main_arg6 0 6 (by decide), R.carry main_arg7 0 6 (by decide)]

theorem feat4 : W 10 (Proc.devRef .tc main_v89) = kX4 (W 0 (Proc.devRef .tc main_arg0)) (W 0 (Proc.devRef .tc main_arg1)) (W 0 (Proc.devRef .tc main_arg3)) (W 0 (Proc.devRef .tc main_arg4)) (W 0 (Proc.devRef .tc main_arg5)) (W 0 (Proc.devRef .tc main_arg6)) (W 0 (Proc.devRef .tc main_arg7)) := by
  rw [kX4, kL3, kLay, R.out4, R.carry main_v68 8 9 (by decide), R.host4, host4_agg, host4_w1, host4_b1, host4_w2, host4_b2,
    R.feat3, R.carry main_v3 3 8 (by decide), R.carry main_v5 3 8 (by decide), R.src3, R.dst3, kAgg_eq,
    R.carry main_arg4 0 8 (by decide), R.carry main_arg5 0 8 (by decide), R.carry main_arg6 0 8 (by decide), R.carry main_arg7 0 8 (by decide)]

theorem feat5 : W 12 (Proc.devRef .tc main_v110) = kX5 (W 0 (Proc.devRef .tc main_arg0)) (W 0 (Proc.devRef .tc main_arg1)) (W 0 (Proc.devRef .tc main_arg3)) (W 0 (Proc.devRef .tc main_arg4)) (W 0 (Proc.devRef .tc main_arg5)) (W 0 (Proc.devRef .tc main_arg6)) (W 0 (Proc.devRef .tc main_arg7)) := by
  rw [kX5, kL4, kLay, R.out5, R.carry main_v89 10 11 (by decide), R.host5, host5_agg, host5_w1, host5_b1, host5_w2, host5_b2,
    R.feat4, R.carry main_v3 3 10 (by decide), R.carry main_v5 3 10 (by decide), R.src3, R.dst3, kAgg_eq,
    R.carry main_arg4 0 10 (by decide), R.carry main_arg5 0 10 (by decide), R.carry main_arg6 0 10 (by decide), R.carry main_arg7 0 10 (by decide)]

theorem feat6 : W 14 (Proc.devRef .tc main_v131) = kX6 (W 0 (Proc.devRef .tc main_arg0)) (W 0 (Proc.devRef .tc main_arg1)) (W 0 (Proc.devRef .tc main_arg3)) (W 0 (Proc.devRef .tc main_arg4)) (W 0 (Proc.devRef .tc main_arg5)) (W 0 (Proc.devRef .tc main_arg6)) (W 0 (Proc.devRef .tc main_arg7)) := by
  rw [kX6, kL5, kLay, R.out6, R.carry main_v110 12 13 (by decide), R.host6, host6_agg, host6_w1, host6_b1, host6_w2, host6_b2,
    R.feat5, R.carry main_v3 3 12 (by decide), R.carry main_v5 3 12 (by decide), R.src3, R.dst3, kAgg_eq,
    R.carry main_arg4 0 12 (by decide), R.carry main_arg5 0 12 (by decide), R.carry main_arg6 0 12 (by decide), R.carry main_arg7 0 12 (by decide)]

theorem kernel_out_of : W 17 (Proc.devRef .tc main_v139) = kernelNet (W 0 (Proc.devRef .tc main_arg0)) (W 0 (Proc.devRef .tc main_arg1)) (W 0 (Proc.devRef .tc main_arg2)) (W 0 (Proc.devRef .tc main_arg3)) (W 0 (Proc.devRef .tc main_arg4)) (W 0 (Proc.devRef .tc main_arg5)) (W 0 (Proc.devRef .tc main_arg6)) (W 0 (Proc.devRef .tc main_arg7)) := by
  rw [kernelNet, R.host8, host8_out, R.out7s, R.out7c, R.carry main_v131 14 15 (by decide), R.feat6, R.host7, host7_bat,
    R.carry main_arg2 0 14 (by decide)]

end RunFacts

end Cert.KernelIdeal.HandVal

end
-- ==== Proof.Val.MlpDot.lean ====
import proofs.«429188_j41669772706622_1_alg».proof.Proof.Gen.KernelIdeal.Skeleton
import Idealize.ShloMosaic.Lib.ValueIdx
import Idealize.ShloMosaic.PureOps.Ideal.Laws

noncomputable section

namespace Cert.KernelIdeal.HandVal

open Cert.KernelIdeal Cert.KernelIdeal.Gen Idealize.ShloMosaic Idealize.ShloMosaic.ValueIdx Idealize.SL.Sem

theorem mlpWholeOffsets : (![0, 0] : Fin 2 → Nat) = fun _ => 0 := funext fun a => by fin_cases a <;> rfl

-- A comparison bit, widened to a word and converted, is one where the two words agree and zero elsewhere.
theorem eqBit_toReal (a b : BitVec 32) :
    FloatOps.sitofp (F := Ideal) .f32 ((IntOp.cmpi .eq a b).setWidth 32) = if a = b then 1 else 0 := by
  by_cases h : a = b
  · subst h
    simp [IntOp.cmpi, FloatOps.sitofp]
  · have hb : (a == b) = false := by simpa using h
    simp [IntOp.cmpi, FloatOps.sitofp, hb, h]

-- the dot contracts the block's columns with the matrix's rows, so entry (p, q) sums the block's (p, k) times the matrix's (k, q)
theorem mlpDot_at (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  congr 2 <;> funext ax <;> apply Fin.ext
  · match ax with
    | ⟨0, _⟩ => rfl
    | ⟨1, _⟩ => exact (DotDims.lhsIdx_val_of_single _ rfl _ _).trans hk
  · match ax with
    | ⟨0, _⟩ => exact (DotDims.rhsIdx_val_of_single _ rfl _ _).trans hk
    | ⟨1, _⟩ => rfl

end Cert.KernelIdeal.HandVal

end
-- ==== Proof.Val.Mlp.lean ====
import proofs.«429188_j41669772706622_1_alg».proof.Proof.KI.Mlp
import proofs.«429188_j41669772706622_1_alg».proof.Proof.Spec
import proofs.«429188_j41669772706622_1_alg».proof.Proof.Val.MlpDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec (Nodes Sq Row mlpArr)

variable (V : (c : Dev nD) → (b : Ref sig .tc) → Buf (Elt Ideal) ((c : Thread nD τ).loc b))

-- the inner sums run over one row of the two row-blocked inputs: read through embeddings that put the rows at r and leave the parameters whole, the payload is the specification
theorem mlpPay_spec {e0 e1 e6 : S2000x128.Idx → Nodes.Idx} {e2 e4 : S128x128.Idx → Sq.Idx} {e3 e5 : S1x128.Idx → Row.Idx} (r : Fin 2000 → Fin 100000)
    (h0 : ∀ y, e0 y = ix2 (r (y 0)) (y 1)) (h1 : ∀ y, e1 y = ix2 (r (y 0)) (y 1)) (h6 : ∀ y, e6 y = ix2 (r (y 0)) (y 1))
    (h2 : ∀ y, e2 y = y) (h3 : ∀ y, e3 y = y) (h4 : ∀ y, e4 y = y) (h5 : ∀ y, e5 y = y)
    (X A : Nodes.Idx → EReal) (W1 : Sq.Idx → EReal) (B1 : Row.Idx → EReal) (W2 : Sq.Idx → EReal) (B2 : Row.Idx → EReal) (j : S2000x128.Idx) :
    k1_pay1 (F := Ideal) (fun y => X (e0 y)) (fun y => A (e1 y)) (fun y => W1 (e2 y)) (fun y => B1 (e3 y)) (fun y => W2 (e4 y)) (fun y => B2 (e5 y)) j
      = mlpArr X A W1 B1 W2 B2 (e6 j) := by
  obtain ⟨p, q, rfl⟩ : ∃ (p : Fin 2000) (q : Fin 128), j = ix2 p q := ⟨j 0, j 1, eq_ix2 j⟩
  unfold k1_pay1 mlpArr
  simp only [h0, h1, h2, h3, h4, h5, h6, shapeCast_self, truncf_apply, maximumf_apply, addf_apply, mlpDot_at, broadcastTo_1b_ab_apply, broadcast_apply]
  rw [show (FloatOps.ofBits (F := Ideal) .f32 0x00000000#32 : EReal) = 0 from Ideal.ofBits_zero_f32]
  rfl

theorem rowIdx : ∀ t : Fin grid1.N, cc1_transform_0 (grid1.coords t) = ![t.val, 0] := by decide +kernel

def row (t : Fin cfg1.N) (p : Fin 2000) : Fin 100000 := ⟨2000 * t.val + p.val, by have := t.isLt.trans_eq N_1; omega⟩

-- the block of a row window at point t is rows 2000 t … of its array
theorem rowsEmb (t : Fin cfg1.N) (y : S2000x128.Idx) : ((cfg1.win 0).blk t).view.emb y = ix2 (row t (y 0)) (y 1) :=
  funext fun a => Fin.ext (by
    have h := win1_0.rect_emb_val t y a
    rw [show win1_0.index t = ![t.val, 0] from rowIdx t] at h
    match a with
    | ⟨0, _⟩ => exact h.trans (Nat.mul_comm _ _ ▸ rfl)
    | ⟨1, _⟩ => exact h.trans (Nat.zero_add _))

-- the one block of a parameter window is its whole array
theorem sqEmb (t : Fin cfg1.N) (y : S128x128.Idx) : ((cfg1.win 2).blk t).view.emb y = y :=
  funext fun a => Fin.ext (win1_2.rect_emb_val_of_index_zero t a (by fin_cases a <;> rfl) y)

theorem biasEmb (t : Fin cfg1.N) (y : S1x128.Idx) : ((cfg1.win 3).blk t).view.emb y = y :=
  funext fun a => Fin.ext (win1_3.rect_emb_val_of_index_zero t a (by fin_cases a <;> rfl) y)

theorem mlpFlush (t : Fin cfg1.N) (X A : Nodes.Idx → EReal) (W1 : Sq.Idx → EReal) (B1 : Row.Idx → EReal) (W2 : Sq.Idx → EReal) (B2 : Row.Idx → EReal) :
    (cfg1.win 6).cut (grid1.coords t) (mlpOut (((cfg1.win 0).blk t).view.read (Elt Ideal) X) (((cfg1.win 1).blk t).view.read (Elt Ideal) A)
        (((cfg1.win 2).blk t).view.read (Elt Ideal) W1) (((cfg1.win 3).blk t).view.read (Elt Ideal) B1)
        (((cfg1.win 4).blk t).view.read (Elt Ideal) W2) (((cfg1.win 5).blk t).view.read (Elt Ideal) B2))
      = ((cfg1.win 6).blk t).view.read (Elt Ideal) (mlpArr X A W1 B1 W2 B2) := by
  rw [mlpOut_eq]
  rw [View.canon_unit_zero mlpWholeOffsets]
  simp only [View.ld_unit_zero (S := S2000x128) mlpWholeOffsets, View.ld_unit_zero (S := S128x128) mlpWholeOffsets, View.ld_unit_zero (S := S1x128) mlpWholeOffsets]
  funext j
  refine Eq.trans ?_ (mlpPay_spec (row t) (rowsEmb t) (rowsEmb t) (rowsEmb t) (sqEmb t) (biasEmb t) (sqEmb t) (biasEmb t) X A W1 B1 W2 B2 j)
  rfl

-- row r lies in the block of point r / 2000
theorem mlpCover (i : Nodes.Idx) : ∃ t : Fin cfg1.N, (cfg1.win 6).flush t = true ∧ i ∈ ((cfg1.win 6).blk t).view.set := by
  have hi : (i 0).val < 100000 := (i 0).isLt
  let t : Fin cfg1.N := ⟨(i 0).val / 2000, by rw [show cfg1.N = 50 from N_1]; omega⟩
  have e : ((cfg1.win 6).blk t).view.emb (ix2 ⟨(i 0).val % 2000, Nat.mod_lt _ (by decide)⟩ (i 1)) = i :=
    (rowsEmb t _).trans (funext fun a => Fin.ext (by match a with | ⟨0, _⟩ => exact Nat.div_add_mod _ _ | ⟨1, _⟩ => rfl))
  exact ⟨t, flush1_6 t, e ▸ View.emb_mem_set _ _⟩

theorem mlp_val1 (c : Dev nD) :
    ((dat1 (F := Ideal) V c).arrAt 6 cfg1.N : Cert.Spec.Nodes.Idx → EReal) = (Cert.Spec.mlpArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) :=
  (dat1 V c).arrAt_eq_of_cover 6 _ (fun t _ => (congrArg _ (after1_6 V c t)).trans (mlpFlush t _ _ _ _ _ _)) mlpCover

theorem mlp_val2 (c : Dev nD) :
    ((dat2 (F := Ideal) V c).arrAt 6 cfg2.N : Cert.Spec.Nodes.Idx → EReal) = (Cert.Spec.mlpArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) :=
  (dat2 V c).arrAt_eq_of_cover 6 _ (fun t _ => (congrArg _ (after2_6 V c t)).trans (mlpFlush t _ _ _ _ _ _)) mlpCover

theorem mlp_val3 (c : Dev nD) :
    ((dat3 (F := Ideal) V c).arrAt 6 cfg3.N : Cert.Spec.Nodes.Idx → EReal) = (Cert.Spec.mlpArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) :=
  (dat3 V c).arrAt_eq_of_cover 6 _ (fun t _ => (congrArg _ (after3_6 V c t)).trans (mlpFlush t _ _ _ _ _ _)) mlpCover

theorem mlp_val4 (c : Dev nD) :
    ((dat4 (F := Ideal) V c).arrAt 6 cfg4.N : Cert.Spec.Nodes.Idx → EReal) = (Cert.Spec.mlpArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) :=
  (dat4 V c).arrAt_eq_of_cover 6 _ (fun t _ => (congrArg _ (after4_6 V c t)).trans (mlpFlush t _ _ _ _ _ _)) mlpCover

theorem mlp_val5 (c : Dev nD) :
    ((dat5 (F := Ideal) V c).arrAt 6 cfg5.N : Cert.Spec.Nodes.Idx → EReal) = (Cert.Spec.mlpArr (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) :=
  (dat5 V c).arrAt_eq_of_cover 6 _ (fun t _ => (congrArg _ (after5_6 V c t)).trans (mlpFlush t _ _ _ _ _ _)) mlpCover

theorem mlp_val6 (c : Dev nD) :
    ((dat6 (F := Ideal) V c).arrAt 6 cfg6.N : Cert.Spec.Nodes.Idx → EReal) = (Cert.Spec.mlpArr (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) :=
  (dat6 V c).arrAt_eq_of_cover 6 _ (fun t _ => (congrArg _ (after6_6 V c t)).trans (mlpFlush t _ _ _ _ _ _)) mlpCover

end Cert.KernelIdeal.HandVal

end
-- ==== Proof.Val.Emb.lean ====
import proofs.«429188_j41669772706622_1_alg».proof.Proof.KI.Reg0
import proofs.«429188_j41669772706622_1_alg».proof.Proof.Spec
import proofs.«429188_j41669772706622_1_alg».proof.Proof.Val.Mlp
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Spec (NodeCol Nodes Sq embArr)

theorem oneHot_apply (x0 : Vec Ideal S2000x1 .i32) (p : Fin 2000) (k : Fin 128) :
    (truncf .bf16 (sitofp .f32 (extui 32 (cmpi .eq
        (broadcastTo S2000x128 (shapeCast S2000x1 x0 shapeCasts_S2000x1_S2000x1) broadcasts_S2000x1_S2000x128)
        (iota .tc S2000x128 32 [1] iota_S2000x128_d1_w32)) natLt_1_32) : FVec Ideal S2000x128 .f32) bitsLt_bf16_f32
      : FVec Ideal S2000x128 .bf16) (ix2 p k) = Cert.Spec.hot (x0 (ix2 p 0)) k.val := by
  rw [truncf_apply, sitofp_apply, extui_apply]
  show FloatOps.sitofp (F := Ideal) .f32 ((IntOp.cmpi .eq _ _).setWidth 32) = _
  rw [eqBit_toReal, shapeCast_self,
    broadcastTo_apply x0 broadcasts_S2000x1_S2000x128 (ix2 p k) (ix2 p 0) (fun a => by
      match a with
      | ⟨0, _⟩ => rfl
      | ⟨1, _⟩ => rfl)]
  unfold Cert.Spec.hot
  refine if_congr ?_ rfl rfl
  show x0 (ix2 p 0) = BitVec.ofNat 32 (0 * 128 + k.val) ↔ _
  rw [Nat.zero_mul, Nat.zero_add]

-- The payload is the block product of the one-hot rows with the table.
theorem pay_apply (x0 : Vec Ideal S2000x1 .i32) (x1 : Vec Ideal S128x128 .f32) (p : Fin 2000) (q : Fin 128) :
    k0_pay1 (F := Ideal) x0 x1 (ix2 p q) = ∑ k : Fin 128, Cert.Spec.hot (x0 (ix2 p 0)) k.val * x1 (ix2 k q) :=
  (mlpDot_at _ _ p q).trans (Finset.sum_congr rfl fun k _ => by rw [oneHot_apply, truncf_apply])

-- read through embeddings that put the rows at r and leave the table whole, the payload is the specification
theorem embPay_spec {e0 : S2000x1.Idx → NodeCol.Idx} {e1 : S128x128.Idx → Sq.Idx} {e2 : S2000x128.Idx → Nodes.Idx} (r : Fin 2000 → Fin 100000)
    (h0 : ∀ y, e0 y = ix2 (r (y 0)) (y 1)) (h1 : ∀ y, e1 y = y) (h2 : ∀ y, e2 y = ix2 (r (y 0)) (y 1))
    (tok : NodeCol.Idx → BitVec 32) (emb : Sq.Idx → EReal) (j : S2000x128.Idx) :
    k0_pay1 (F := Ideal) (fun y => tok (e0 y)) (fun y => emb (e1 y)) j = embArr tok emb (e2 j) := by
  obtain ⟨p, q, rfl⟩ : ∃ (p : Fin 2000) (q : Fin 128), j = ix2 p q := ⟨j 0, j 1, eq_ix2 j⟩
  rw [pay_apply]
  unfold embArr
  simp only [h0, h1, h2]
  rfl

-- the block of the token column at point t is rows 2000 t … of the column
theorem tokEmb (t : Fin cfg0.N) (y : S2000x1.Idx) : ((cfg0.win 0).blk t).view.emb y = ix2 (row t (y 0)) (y 1) :=
  funext fun a => Fin.ext (by
    have h := win0_0.rect_emb_val t y a
    rw [show win0_0.index t = ![t.val, 0] from rowIdx t] at h
    match a with
    | ⟨0, _⟩ => exact h.trans (Nat.mul_comm _ _ ▸ rfl)
    | ⟨1, _⟩ => exact h.trans (Nat.zero_add _))

variable (V : (c : Dev nD) → (b : Ref sig .tc) → Buf (Elt Ideal) ((c : Thread nD τ).loc b))

theorem flushed_emb (c : Dev nD) (t : Fin cfg0.N) :
    (dat0 V c).flushed 2 t = ((cfg0.win 2).blk t).view.read (Elt Ideal)
      (Cert.Spec.embArr (V c (Pipeline.arrRef spec0 0)) (V c (Pipeline.arrRef spec0 1))) := by
  show (cfg0.win 2).cut (grid0.coords t) ((dat0 V c).after 2 t) = _
  rw [after0_2]
  unfold out0_2
  rw [View.canon_unit_zero mlpWholeOffsets]
  simp only [View.ld_unit_zero (S := S2000x1) mlpWholeOffsets, View.ld_unit_zero (S := S128x128) mlpWholeOffsets]
  funext j
  refine Eq.trans ?_ (embPay_spec (row t) (tokEmb t) (sqEmb t) (rowsEmb t) _ _ j)
  rfl

theorem emb_val (c : Dev nD) :
    ((dat0 (F := Ideal) V c).arrAt 2 cfg0.N : Cert.Spec.Nodes.Idx → EReal)
      = Cert.Spec.embArr (V c (Pipeline.arrRef spec0 0)) (V c (Pipeline.arrRef spec0 1)) :=
  (dat0 V c).arrAt_eq_of_cover 2 _ (fun t _ => flushed_emb V c t) mlpCover

end Cert.KernelIdeal.HandVal

end
-- ==== Proof.Val.PoolPay.lean ====
import proofs.«429188_j41669772706622_1_alg».proof.Proof.Gen.KernelIdeal.Skeleton
import proofs.«429188_j41669772706622_1_alg».proof.Proof.Spec
import proofs.«429188_j41669772706622_1_alg».proof.Proof.Val.MlpDot
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

noncomputable section

namespace Cert.KernelIdeal.HandVal

open Cert.KernelIdeal Cert.KernelIdeal.Gen
open Idealize.ShloMosaic Idealize.ShloMosaic.ValueIdx

theorem poolSpread_apply (v : IVec S1000x1 32) (r : Fin 1000) (g : Fin 2048) :
    broadcastTo S1000x2048 v broadcasts_S1000x1_S1000x2048 (ix2 r g) = v (ix2 r (0 : Fin 1)) := by
  refine broadcastTo_apply v broadcasts_S1000x1_S1000x2048 (ix2 r g) (ix2 r (0 : Fin 1)) fun ax => ?_
  match ax with
  | ⟨0, _⟩ => rfl
  | ⟨1, _⟩ => rfl

theorem poolLane_apply (r : Fin 1000) (g : Fin 2048) :
    iota .tc S1000x2048 32 [1] iota_S1000x2048_d1_w32 (ix2 r g) = BitVec.ofNat 32 g.val :=
  iota_single_apply .tc S1000x2048 32 1 iota_S1000x2048_d1_w32 (ix2 r g)

theorem poolHot_apply (v3 : Vec Ideal S1000x1 .i32) (r : Fin 1000) (g : Fin 2048) :
    k7_pay3 (F := Ideal) v3 (ix2 r g) = Cert.Spec.hot (v3 (ix2 r (0 : Fin 1))) g.val := by
  unfold k7_pay3
  simp only [shapeCast_self]
  rw [truncf_apply, sitofp_apply, extui_apply]
  show FloatOps.sitofp (F := Ideal) .f32 ((IntOp.cmpi .eq (broadcastTo S1000x2048 v3 broadcasts_S1000x1_S1000x2048 (ix2 r g))
    (iota .tc S1000x2048 32 [1] iota_S1000x2048_d1_w32 (ix2 r g))).setWidth 32) = _
  rw [poolSpread_apply, poolLane_apply, eqBit_toReal]
  rfl

theorem sums_step_apply (v3 : Vec Ideal S1000x1 .i32) (v11 : FVec Ideal S1000x128 .f32) (v15 : FVec Ideal S2048x128 .f32)
    (g : Fin 2048) (j : Fin 128) :
    k7_pay4 (F := Ideal) v3 v11 v15 (ix2 g j)
      = v15 (ix2 g j) + ∑ r : Fin 1000, Cert.Spec.hot (v3 (ix2 r (0 : Fin 1))) g.val * v11 (ix2 r j) := by
  unfold k7_pay4
  simp only [shapeCast_self]
  rw [addf_apply]
  refine congrArg (v15 (ix2 g j) + ·) ?_
  simp only [matmul]
  rw [Ideal.matmul_constant_zero_apply, ← Equiv.sum_comp (contrEquiv1 dot_S1000x2048_S1000x128_S2048x128_0_0_1_1_n_n 1000 rfl rfl).symm]
  refine Finset.sum_congr rfl fun r _ => ?_
  have hk := contrEquiv1_symm_val dot_S1000x2048_S1000x128_S2048x128_0_0_1_1_n_n 1000 rfl rfl r
  have el : dot_S1000x2048_S1000x128_S2048x128_0_0_1_1_n_n.lhsIdx (ix2 g j) ((contrEquiv1 dot_S1000x2048_S1000x128_S2048x128_0_0_1_1_n_n 1000 rfl rfl).symm r) = ix2 r g := funext fun a => Fin.ext (by
    match a with
    | ⟨0, _⟩ => exact (dot_S1000x2048_S1000x128_S2048x128_0_0_1_1_n_n.lhsIdx_val_of_single rfl _ _).trans hk
    | ⟨1, _⟩ => rfl)
  have er : dot_S1000x2048_S1000x128_S2048x128_0_0_1_1_n_n.rhsIdx (ix2 g j) ((contrEquiv1 dot_S1000x2048_S1000x128_S2048x128_0_0_1_1_n_n 1000 rfl rfl).symm r) = ix2 r j := funext fun a => Fin.ext (by
    match a with
    | ⟨0, _⟩ => exact (dot_S1000x2048_S1000x128_S2048x128_0_0_1_1_n_n.rhsIdx_val_of_single rfl _ _).trans hk
    | ⟨1, _⟩ => rfl)
  rw [el, er, poolHot_apply, truncf_apply]

theorem poolOne_bf16 : Ideal.ofBits .bf16 0x3F80#16 = 1 := by
  simp [Ideal.ofBits, Ideal.ieee]
  rw [← EReal.coe_mul]
  norm_num

theorem counts_step_apply (v3 : Vec Ideal S1000x1 .i32) (v21 : FVec Ideal S2048x1 .f32) (g : Fin 2048) :
    k7_pay5 (F := Ideal) v3 v21 (ix2 g (0 : Fin 1))
      = v21 (ix2 g (0 : Fin 1)) + ∑ r : Fin 1000, Cert.Spec.hot (v3 (ix2 r (0 : Fin 1))) g.val * 1 := by
  unfold k7_pay5
  simp only [shapeCast_self]
  rw [addf_apply]
  refine congrArg (v21 (ix2 g (0 : Fin 1)) + ·) ?_
  simp only [matmul]
  rw [Ideal.matmul_constant_zero_apply, ← Equiv.sum_comp (contrEquiv1 dot_S1000x2048_S1000x1_S2048x1_0_0_1_1_n_n 1000 rfl rfl).symm]
  refine Finset.sum_congr rfl fun r _ => ?_
  have hk := contrEquiv1_symm_val dot_S1000x2048_S1000x1_S2048x1_0_0_1_1_n_n 1000 rfl rfl r
  have el : dot_S1000x2048_S1000x1_S2048x1_0_0_1_1_n_n.lhsIdx (ix2 g (0 : Fin 1)) ((contrEquiv1 dot_S1000x2048_S1000x1_S2048x1_0_0_1_1_n_n 1000 rfl rfl).symm r) = ix2 r g := funext fun a => Fin.ext (by
    match a with
    | ⟨0, _⟩ => exact (dot_S1000x2048_S1000x1_S2048x1_0_0_1_1_n_n.lhsIdx_val_of_single rfl _ _).trans hk
    | ⟨1, _⟩ => rfl)
  rw [el, poolHot_apply, broadcast_apply]
  exact congrArg (Cert.Spec.hot (v3 (ix2 r (0 : Fin 1))) g.val * ·) poolOne_bf16

theorem sums_reset_apply (i : S2048x128.Idx) : k7_pay1 (F := Ideal) i = 0 := by
  unfold k7_pay1
  simp only [shapeCast_self]
  rw [broadcast_apply]
  exact Ideal.ofBits_zero_f32

theorem counts_reset_apply (i : S2048x1.Idx) : k7_pay2 (F := Ideal) i = 0 := by
  unfold k7_pay2
  simp only [shapeCast_self]
  rw [broadcast_apply]
  exact Ideal.ofBits_zero_f32

theorem sum_rows_by_tiles {M : Type*} [AddCommMonoid M] (f : Fin 100000 → M) :
    ∑ n : Fin 100000, f n = ∑ t : Fin 100, ∑ r : Fin 1000, f ⟨1000 * t.val + r.val, by omega⟩ := by
  rw [← Equiv.sum_comp (finProdFinEquiv : Fin 100 × Fin 1000 ≃ Fin (100 * 1000)) f, Fintype.sum_prod_type]
  refine Finset.sum_congr rfl fun t _ => Finset.sum_congr rfl fun r _ => congrArg f (Fin.ext ?_)
  show r.val + 1000 * t.val = 1000 * t.val + r.val
  omega

end Cert.KernelIdeal.HandVal

end
-- ==== Proof.Val.PoolArr.lean ====
import proofs.«429188_j41669772706622_1_alg».proof.Proof.KI.Reg7
import proofs.«429188_j41669772706622_1_alg».proof.Proof.Spec
import Idealize.ShloMosaic.Lib.Pipeline.Value

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem lastPoint_lt : 99 < cfg7.N := by rw [show cfg7.N = 100 from N_7]; decide

abbrev lastPoint : Fin cfg7.N := ⟨99, lastPoint_lt⟩

theorem flushed_sums (c : Dev nD) (t : Fin cfg7.N) (hf : (cfg7.win 2).flush t = true) :
    (dat7 V c).flushed 2 t = ((cfg7.win 2).blk t).view.read (Elt F) (scAt7 V c 99 lastPoint_lt).1 := by
  have hN : cfg7.N = 100 := N_7
  obtain rfl : t = lastPoint := Fin.ext (show t.val = 99 by have := (flush7_2 t).mp hf; have := t.isLt; omega)
  show (cfg7.win 2).cut (grid7.coords lastPoint) ((dat7 V c).after 2 lastPoint) = _
  rw [after7_2]
  have hz' : (fun a => win7_2.index lastPoint a * main_v133_0.ty.shape.size a) = fun _ => 0 := funext fun a => by fin_cases a <;> rfl
  exact (Memref.read_access_unit_zero (Elt F) main_v133_0 hz' (fun a => by rw [congrFun hz' a]; simp) (scAt7 V c 99 lastPoint_lt).1).symm

theorem sums_arr_eq (c : Dev nD) :
    ((dat7 V c).arrAt 2 cfg7.N : Cert.Spec.Pooled.Idx → Elt F .f32) = (scAt7 V c 99 lastPoint_lt).1 :=
  (dat7 V c).arrAt_eq_of_cover 2 _ (flushed_sums V c) fun i =>
    ⟨lastPoint, (flush7_2 lastPoint).mpr rfl, (show ((cfg7.win 2).blk lastPoint).view.emb i = i from
      funext fun a => Fin.ext (win7_2.rect_emb_val_of_index_zero lastPoint a (by fin_cases a <;> rfl) i)) ▸ View.emb_mem_set _ i⟩

theorem flushed_counts (c : Dev nD) (t : Fin cfg7.N) (hf : (cfg7.win 3).flush t = true) :
    (dat7 V c).flushed 3 t = ((cfg7.win 3).blk t).view.read (Elt F) (scAt7 V c 99 lastPoint_lt).2 := by
  have hN : cfg7.N = 100 := N_7
  obtain rfl : t = lastPoint := Fin.ext (show t.val = 99 by have := (flush7_3 t).mp hf; have := t.isLt; omega)
  show (cfg7.win 3).cut (grid7.coords lastPoint) ((dat7 V c).after 3 lastPoint) = _
  rw [after7_3]
  have hz' : (fun a => win7_3.index lastPoint a * main_v133_1.ty.shape.size a) = fun _ => 0 := funext fun a => by fin_cases a <;> rfl
  exact (Memref.read_access_unit_zero (Elt F) main_v133_1 hz' (fun a => by rw [congrFun hz' a]; simp) (scAt7 V c 99 lastPoint_lt).2).symm

theorem counts_arr_eq (c : Dev nD) :
    ((dat7 V c).arrAt 3 cfg7.N : Cert.Spec.PooledCol.Idx → Elt F .f32) = (scAt7 V c 99 lastPoint_lt).2 :=
  (dat7 V c).arrAt_eq_of_cover 3 _ (flushed_counts V c) fun i =>
    ⟨lastPoint, (flush7_3 lastPoint).mpr rfl, (show ((cfg7.win 3).blk lastPoint).view.emb i = i from
      funext fun a => Fin.ext (win7_3.rect_emb_val_of_index_zero lastPoint a (by fin_cases a <;> rfl) i)) ▸ View.emb_mem_set _ i⟩

end Cert.KernelIdeal.HandVal

end
-- ==== Proof.Val.Pool.lean ====
import proofs.«429188_j41669772706622_1_alg».proof.Proof.KI.Reg7
import proofs.«429188_j41669772706622_1_alg».proof.Proof.Val.PoolPay
import proofs.«429188_j41669772706622_1_alg».proof.Proof.Val.PoolArr
import proofs.«429188_j41669772706622_1_alg».proof.Proof.Spec
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

def poolRow (t r : ℕ) : Fin 100000 := ⟨(1000 * t + r) % 100000, Nat.mod_lt _ (by decide)⟩

theorem poolRow_val {t r : ℕ} (ht : t < 100) (hr : r < 1000) : (poolRow t r).val = 1000 * t + r := by
  show (1000 * t + r) % 100000 = _
  omega

theorem poolIdx : ∀ t : Fin grid7.N, cc7_transform_0 (grid7.coords t) = ![t.val, 0] := by decide +kernel

-- a block element of the features sits at row 1000 t + r of their array
theorem xBlock_apply (c : Dev nD) (t : Fin cfg7.N) (r : Fin 1000) (j : Fin 128) :
    (iblk7 V c 0 t : Vec Ideal S1000x128 .f32) (ix2 r j)
      = (V c (Pipeline.arrRef spec7 0) : Cert.Spec.Nodes.Idx → EReal) (ix2 (poolRow t.val r.val) j) := by
  have hN : t.val < 100 := t.isLt.trans_eq N_7
  refine congrArg (V c (Pipeline.arrRef spec7 0)) (funext fun a => Fin.ext ?_)
  have h := win7_0.rect_emb_val t (ix2 r j) a
  rw [show win7_0.index t = ![t.val, 0] from poolIdx t] at h
  match a with
  | ⟨0, _⟩ => exact h.trans (by show t.val * 1000 + r.val = (1000 * t.val + r.val) % 100000; omega)
  | ⟨1, _⟩ => exact h.trans (Nat.zero_add _)

theorem batBlock_apply (c : Dev nD) (t : Fin cfg7.N) (r : Fin 1000) :
    (iblk7 V c 1 t : Vec Ideal S1000x1 .i32) (ix2 r (0 : Fin 1))
      = (V c (Pipeline.arrRef spec7 1) : Cert.Spec.NodeCol.Idx → BitVec 32) (ix2 (poolRow t.val r.val) (0 : Fin 1)) := by
  have hN : t.val < 100 := t.isLt.trans_eq N_7
  refine congrArg (V c (Pipeline.arrRef spec7 1)) (funext fun a => Fin.ext ?_)
  have h := win7_1.rect_emb_val t (ix2 r (0 : Fin 1)) a
  rw [show win7_1.index t = ![t.val, 0] from poolIdx t] at h
  match a with
  | ⟨0, _⟩ => exact h.trans (by show t.val * 1000 + r.val = (1000 * t.val + r.val) % 100000; omega)
  | ⟨1, _⟩ => exact h.trans (Nat.zero_add _)

def tileSums (x : Cert.Spec.Nodes.Idx → EReal) (bat : Cert.Spec.NodeCol.Idx → BitVec 32) (g : Fin 2048) (j : Fin 128) (t : ℕ) : EReal :=
  ∑ r : Fin 1000, Cert.Spec.hot (bat (ix2 (poolRow t r.val) (0 : Fin 1))) g.val * x (ix2 (poolRow t r.val) j)

def tileCounts (bat : Cert.Spec.NodeCol.Idx → BitVec 32) (g : Fin 2048) (t : ℕ) : EReal :=
  ∑ r : Fin 1000, Cert.Spec.hot (bat (ix2 (poolRow t r.val) (0 : Fin 1))) g.val * 1

theorem blockSums_eq (c : Dev nD) (t : Fin cfg7.N) (g : Fin 2048) (j : Fin 128) :
    ∑ r : Fin 1000, Cert.Spec.hot ((iblk7 V c 1 t : Vec Ideal S1000x1 .i32) (ix2 r (0 : Fin 1))) g.val
        * (iblk7 V c 0 t : Vec Ideal S1000x128 .f32) (ix2 r j)
      = tileSums (V c (Pipeline.arrRef spec7 0)) (V c (Pipeline.arrRef spec7 1)) g j t.val :=
  Finset.sum_congr rfl fun r _ =>
    congrArg₂ (fun (w : BitVec 32) (y : EReal) => Cert.Spec.hot w g.val * y) (batBlock_apply V c t r) (xBlock_apply V c t r j)

theorem blockCounts_eq (c : Dev nD) (t : Fin cfg7.N) (g : Fin 2048) :
    ∑ r : Fin 1000, Cert.Spec.hot ((iblk7 V c 1 t : Vec Ideal S1000x1 .i32) (ix2 r (0 : Fin 1))) g.val * 1
      = tileCounts (V c (Pipeline.arrRef spec7 1)) g t.val :=
  Finset.sum_congr rfl fun r _ =>
    congrArg (fun (w : BitVec 32) => Cert.Spec.hot w g.val * (1 : EReal)) (batBlock_apply V c t r)

theorem sums_at (c : Dev nD) : ∀ (n : ℕ) (h : n < cfg7.N) (g : Fin 2048) (j : Fin 128),
    (scAt7 V c n h).1 (ix2 g j)
      = ∑ t ∈ Finset.range (n + 1), tileSums (V c (Pipeline.arrRef spec7 0)) (V c (Pipeline.arrRef spec7 1)) g j t
  | 0, h, g, j => by
    rw [scAt7_zero V c h]
    dsimp only
    refine (sums_step_apply (iblk7 V c 1 ⟨0, h⟩) (iblk7 V c 0 ⟨0, h⟩) (k7_pay1 (F := Ideal)) g j).trans ?_
    rw [sums_reset_apply, zero_add, Finset.sum_range_one]
    exact blockSums_eq V c ⟨0, h⟩ g j
  | n + 1, h, g, j => by
    rw [scAt7_succ V c n h]
    dsimp only
    refine (sums_step_apply (iblk7 V c 1 ⟨n + 1, h⟩) (iblk7 V c 0 ⟨n + 1, h⟩) (scAt7 V c n (Nat.lt_of_succ_lt h)).1 g j).trans ?_
    rw [sums_at c n (Nat.lt_of_succ_lt h) g j, Finset.sum_range_succ _ (n + 1)]
    exact congrArg (_ + ·) (blockSums_eq V c ⟨n + 1, h⟩ g j)

theorem counts_at (c : Dev nD) : ∀ (n : ℕ) (h : n < cfg7.N) (g : Fin 2048),
    (scAt7 V c n h).2 (ix2 g (0 : Fin 1))
      = ∑ t ∈ Finset.range (n + 1), tileCounts (V c (Pipeline.arrRef spec7 1)) g t
  | 0, h, g => by
    rw [scAt7_zero V c h]
    dsimp only
    refine (counts_step_apply (iblk7 V c 1 ⟨0, h⟩) (k7_pay2 (F := Ideal)) g).trans ?_
    rw [counts_reset_apply, zero_add, Finset.sum_range_one]
    exact blockCounts_eq V c ⟨0, h⟩ g
  | n + 1, h, g => by
    rw [scAt7_succ V c n h]
    dsimp only
    refine (counts_step_apply (iblk7 V c 1 ⟨n + 1, h⟩) (scAt7 V c n (Nat.lt_of_succ_lt h)).2 g).trans ?_
    rw [counts_at c n (Nat.lt_of_succ_lt h) g, Finset.sum_range_succ _ (n + 1)]
    exact congrArg (_ + ·) (blockCounts_eq V c ⟨n + 1, h⟩ g)

theorem allTiles_sums (x : Cert.Spec.Nodes.Idx → EReal) (bat : Cert.Spec.NodeCol.Idx → BitVec 32) (g : Fin 2048) (j : Fin 128) :
    ∑ t ∈ Finset.range 100, tileSums x bat g j t = Cert.Spec.poolSums x bat (ix2 g j) := by
  show _ = ∑ n : Fin 100000, Cert.Spec.hot (bat (ix2 n (0 : Fin 1))) g.val * x (ix2 n j)
  rw [sum_rows_by_tiles, Finset.sum_range]
  refine Finset.sum_congr rfl fun t _ => Finset.sum_congr rfl fun r _ => ?_
  have e : poolRow t.val r.val = ⟨1000 * t.val + r.val, by omega⟩ := Fin.ext (poolRow_val t.isLt r.isLt)
  rw [e]

-- The counts are the sums of the constant feature one.
theorem allTiles_counts (bat : Cert.Spec.NodeCol.Idx → BitVec 32) (g : Fin 2048) :
    ∑ t ∈ Finset.range 100, tileCounts bat g t = Cert.Spec.poolCounts bat (ix2 g (0 : Fin 1)) :=
  allTiles_sums (fun _ => 1) bat g 0

theorem sums_last (c : Dev nD) :
    ((scAt7 V c 99 lastPoint_lt).1 : Cert.Spec.Pooled.Idx → EReal)
      = Cert.Spec.poolSums (V c (Pipeline.arrRef spec7 0)) (V c (Pipeline.arrRef spec7 1)) := by
  funext i
  obtain ⟨g, j, rfl⟩ : ∃ (g : Fin 2048) (j : Fin 128), i = ix2 g j := ⟨i 0, i 1, eq_ix2 i⟩
  rw [sums_at V c 99 lastPoint_lt g j]
  exact allTiles_sums _ _ g j

theorem counts_last (c : Dev nD) :
    ((scAt7 V c 99 lastPoint_lt).2 : Cert.Spec.PooledCol.Idx → EReal)
      = Cert.Spec.poolCounts (V c (Pipeline.arrRef spec7 1)) := by
  funext i
  obtain ⟨g, z, rfl⟩ : ∃ (g : Fin 2048) (z : Fin 1), i = ix2 g z := ⟨i 0, i 1, eq_ix2 i⟩
  obtain rfl : z = 0 := Subsingleton.elim _ _
  rw [counts_at V c 99 lastPoint_lt g]
  exact allTiles_counts _ g

theorem pool_sums_val (c : Dev nD) :
    ((dat7 (F := Ideal) V c).arrAt 2 cfg7.N : Cert.Spec.Pooled.Idx → EReal)
      = Cert.Spec.poolSums (V c (Pipeline.arrRef spec7 0)) (V c (Pipeline.arrRef spec7 1)) :=
  (sums_arr_eq V c).trans (sums_last V c)

theorem pool_counts_val (c : Dev nD) :
    ((dat7 (F := Ideal) V c).arrAt 3 cfg7.N : Cert.Spec.PooledCol.Idx → EReal)
      = Cert.Spec.poolCounts (V c (Pipeline.arrRef spec7 1)) :=
  (counts_arr_eq V c).trans (counts_last V c)

end Cert.KernelIdeal.HandVal

end
-- ==== Proof.Val.KernelRun.lean ====
import proofs.«429188_j41669772706622_1_alg».proof.Proof.KI.Run
import proofs.«429188_j41669772706622_1_alg».proof.Proof.Val.Kernel
import proofs.«429188_j41669772706622_1_alg».proof.Proof.Val.Emb
import proofs.«429188_j41669772706622_1_alg».proof.Proof.Val.Mlp
import proofs.«429188_j41669772706622_1_alg».proof.Proof.Val.Pool

set_option maxRecDepth 16384

noncomputable section

namespace Cert.KernelIdeal.HandVal

open Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

@[reducible] def Wrun (c : Dev nD) : ℕ → Valuation τ sig (Elt Ideal)
  | 0 => W0 m ρ c
  | 1 => W1 m ρ c
  | 2 => W2 m ρ c
  | 3 => W3 m ρ c
  | 4 => W4 m ρ c
  | 5 => W5 m ρ c
  | 6 => W6 m ρ c
  | 7 => W7 m ρ c
  | 8 => W8 m ρ c
  | 9 => W9 m ρ c
  | 10 => W10 m ρ c
  | 11 => W11 m ρ c
  | 12 => W12 m ρ c
  | 13 => W13 m ρ c
  | 14 => W14 m ρ c
  | 15 => W15 m ρ c
  | 16 => W16 m ρ c
  | _ => W17 m ρ c

-- A reference outside a list that holds every value of `f` is no value of `f`.
theorem ne_of_not_mem {n : ℕ} {f : Fin n → Ref sig .tc} {l : List (Ref sig .tc)} (hl : ∀ w, f w ∈ l) {b : Ref sig .tc}
    (hb : b ∉ l) (w : Fin n) : f w ≠ b := fun e => hb (e ▸ hl w)

set_option maxHeartbeats 1000000 in
theorem runFacts (c : Dev nD) : RunFacts (Wrun m ρ c) where
  host0 := rfl
  host1 := rfl
  host2 := rfl
  host3 := rfl
  host4 := rfl
  host5 := rfl
  host6 := rfl
  host7 := rfl
  host8 := rfl
  frame := fun j b => match j with
    | 0 => StableHlo.after_of_writes_sub hostOps0 _ hostOps0_writes
    | 1 => fun hb => W2_of_ne m ρ c b (ne_of_not_mem (by decide) hb)
    | 2 => StableHlo.after_of_writes_sub hostOps1 _ hostOps1_writes
    | 3 => fun hb => W4_of_ne m ρ c b (ne_of_not_mem (by decide) hb)
    | 4 => StableHlo.after_of_writes_sub hostOps2 _ hostOps2_writes
    | 5 => fun hb => W6_of_ne m ρ c b (ne_of_not_mem (by decide) hb)
    | 6 => StableHlo.after_of_writes_sub hostOps3 _ hostOps3_writes
    | 7 => fun hb => W8_of_ne m ρ c b (ne_of_not_mem (by decide) hb)
    | 8 => StableHlo.after_of_writes_sub hostOps4 _ hostOps4_writes
    | 9 => fun hb => W10_of_ne m ρ c b (ne_of_not_mem (by decide) hb)
    | 10 => StableHlo.after_of_writes_sub hostOps5 _ hostOps5_writes
    | 11 => fun hb => W12_of_ne m ρ c b (ne_of_not_mem (by decide) hb)
    | 12 => StableHlo.after_of_writes_sub hostOps6 _ hostOps6_writes
    | 13 => fun hb => W14_of_ne m ρ c b (ne_of_not_mem (by decide) hb)
    | 14 => StableHlo.after_of_writes_sub hostOps7 _ hostOps7_writes
    | 15 => fun hb => W16_of_ne m ρ c b (ne_of_not_mem (by decide) hb)
    | 16 => StableHlo.after_of_writes_sub hostOps8 _ hostOps8_writes
    | _ + 17 => fun _ => rfl
  out0 := (W2_out m ρ c).trans (emb_val (V1 m ρ) c)
  out1 := (W4_out m ρ c).trans (mlp_val1 (V3 m ρ) c)
  out2 := (W6_out m ρ c).trans (mlp_val2 (V5 m ρ) c)
  out3 := (W8_out m ρ c).trans (mlp_val3 (V7 m ρ) c)
  out4 := (W10_out m ρ c).trans (mlp_val4 (V9 m ρ) c)
  out5 := (W12_out m ρ c).trans (mlp_val5 (V11 m ρ) c)
  out6 := (W14_out m ρ c).trans (mlp_val6 (V13 m ρ) c)
  out7s := (W16_out0 m ρ c).trans (pool_sums_val (V15 m ρ) c)
  out7c := (W16_out1 m ρ c).trans (pool_counts_val (V15 m ρ) c)

theorem kernel_out (c : Dev nD) :
    W17 m ρ c (Proc.devRef .tc main_v139) =
      kernelNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (runFacts m ρ c).kernel_out_of

end Cert.KernelIdeal.HandVal

end
-- ==== Proof.Bridge.Pool.lean ====
import proofs.«429188_j41669772706622_1_alg».proof.KernelIdeal
import proofs.«429188_j41669772706622_1_alg».proof.Proof.Spec
import proofs.«429188_j41669772706622_1_alg».proof.Proof.Ref
import Idealize.ShloMosaic.Lib.Pipeline.Value
import Idealize.ShloMosaic.Lib.ValueIdxRank1
import Idealize.ShloMosaic.Lib.IdealHost
import Idealize.ShloMosaic.PureOps.Ideal.Laws

noncomputable section

namespace Cert.Proof.Bridge

open Idealize.ShloMosaic Idealize.ShloMosaic.ValueIdx Cert.ReferenceIdeal Cert.ReferenceIdeal.Gen Cert.ReferenceIdeal.HandRef

variable [KernelIdeal.Facts₀]

-- An update lands where its start plus its window coordinate says, when that is an index of the operand, and nowhere otherwise.
theorem lands_iff {s si su : Shape} (d : ScatterDims s si su) {w : ℕ} (j : su.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    exact ⟨fun e a => by rw [← e]; exact (Int.toNat_of_nonneg (h a).1).symm,
      fun e => funext fun a => Fin.ext (by have := e a; show (_ : ℤ).toNat = _; omega)⟩
  · rename_i h
    exact ⟨nofun, fun e => (h fun a => by have := e a; have := (i a).isLt; omega).elim⟩

-- A word below 2048 is its own signed value.
theorem hot_eq (w : BitVec 32) (g : ℕ) (hg : g < 2048) : Spec.hot w g = if w.toInt = (g : ℤ) then 1 else 0 := by
  refine if_congr ?_ rfl rfl
  rw [BitVec.toInt_eq_toNat_cond, ← BitVec.toNat_inj, BitVec.toNat_ofNat, Nat.mod_eq_of_lt (show g < 2 ^ 32 by omega)]
  have := w.isLt
  split <;> omega

theorem col_apply (v : IVec S100000 32) (n : Fin 100000) :
    shapeCast KernelIdeal.S100000x1 v KernelIdeal.Facts₀.shapeCasts_S100000_S100000x1 (ix2 n 0) = v (ix1 n) :=
  shapeCast_apply v _ (ix2 n 0) (ix1 n)
    (by rw [Shape.rowMajor_val_one, Shape.rowMajor_val_two]; show n.val = n.val * 1 + 0; omega)

theorem col1_apply {α : Type} {n : ℕ} (h : (⟨1, ![n]⟩ : Shape).BroadcastsInDim ⟨2, ![n, 1]⟩ ![0])
    (v : (⟨1, ![n]⟩ : Shape).Idx → α) (p : Fin n) : broadcastInDim ⟨2, ![n, 1]⟩ ![0] h v (ix2 p 0) = v (ix1 p) :=
  broadcastInDim_apply _ _ v (ix2 p 0) (ix1 p) (fun a => match a with
    | ⟨0, _⟩ => by show p.val = if n = 1 then 0 else p.val; have := p.isLt; split <;> omega)

theorem rBat_apply (v : IVec S100000 32) (n : Fin 100000) : rBat v (ix2 n 0) = v (ix1 n) := col1_apply _ v n

private abbrev dCnt := scatter_S2000_S100000x1_S100000_n_0_0_1
private abbrev dSum := scatter_S2000x128_S100000x1_S100000x128_1_0_0_1

-- The one graph axis starts at the node's graph id read signed, and has no window coordinate.
private theorem cnt_lands (bat : IVec S100000 32) (j : S100000.Idx) (g : Fin 2000) :
    dCnt.resultIdx? j (rBat bat) = some (ix1 g) ↔ (bat (ix1 (j 0))).toInt = (g.val : ℤ) := by
  have hs : dCnt.start j (rBat bat) 0 = (bat (ix1 (j 0))).toInt := by
    unfold ScatterDims.start
    rw [dif_pos (show (0 : Fin 1) ∈ dCnt.scatterDimsToOperandDims from List.mem_singleton.mpr rfl)]
    rw [← rBat_apply bat (j 0)]
    exact congrArg (fun k => (rBat bat k).toInt) (funext fun b => Fin.ext (match b with | ⟨0, _⟩ => rfl | ⟨1, _⟩ => rfl))
  have hw : dCnt.window j 0 = 0 := by
    unfold ScatterDims.window
    rw [dif_neg (by decide : (0 : Fin 1) ∉ dCnt.sKept)]
  refine (lands_iff _ _ _ _).trans (Fin.forall_fin_one.trans ?_)
  rw [hs, hw]
  show _ + ((0 : ℕ) : ℤ) = (g.val : ℤ) ↔ _
  omega

-- The graph axis starts at the node's graph id read signed and has no window coordinate; the feature axis starts at zero and carries the update's column.
private theorem sum_lands (idx : IVec S100000x1 32) (j : S100000x128.Idx) (i : S2000x128.Idx) :
    dSum.resultIdx? j idx = some i ↔ j 1 = i 1 ∧ (idx (ix2 (j 0) 0)).toInt = ((i 0).val : ℤ) := by
  have hs0 : dSum.start j idx 0 = (idx (ix2 (j 0) 0)).toInt := by
    unfold ScatterDims.start
    rw [dif_pos (show (0 : Fin 2) ∈ dSum.scatterDimsToOperandDims from List.mem_singleton.mpr rfl)]
    exact congrArg (fun k => (idx k).toInt) (funext fun b => Fin.ext (match b with | ⟨0, _⟩ => rfl | ⟨1, _⟩ => rfl))
  have hs1 : dSum.start j idx 1 = 0 := by
    unfold ScatterDims.start
    rw [dif_neg (by decide : (1 : Fin 2) ∉ dSum.scatterDimsToOperandDims)]
  have hw0 : dSum.window j 0 = 0 := by
    unfold ScatterDims.window
    rw [dif_neg (by decide : (0 : Fin 2) ∉ dSum.sKept)]
  have hw1 : dSum.window j 1 = (j 1).val := by
    unfold ScatterDims.window
    rw [dif_pos (by decide : (1 : Fin 2) ∈ dSum.sKept)]
    rfl
  refine (lands_iff _ _ _ _).trans (Fin.forall_fin_two.trans ?_)
  rw [hs0, hs1, hw0, hw1]
  exact ⟨fun ⟨h0, h1⟩ => ⟨Fin.ext (by omega), by omega⟩, fun ⟨h1, h0⟩ => ⟨by omega, by have := congrArg Fin.val h1; omega⟩⟩

theorem bzero_apply {s : Shape} (h : S_.BroadcastsInDim s ![]) (i : s.Idx) :
    broadcastInDim s ![] h (constant (F := Ideal) S_ .f32 0x00000000#32) i = 0 := Ideal.ofBits_zero_f32

theorem pool_cnt_ref (bat : IVec S100000 32) (g : Fin 2000) :
    rCounts (F := Ideal) bat (ix1 g) = ∑ n : Fin 100000, Spec.hot (bat (ix1 n)) g.val * 1 := by
  show Ideal.hostScatterAdd dCnt _ (rBat bat) _ (ix1 g) = _
  unfold Ideal.hostScatterAdd
  rw [bzero_apply, zero_add, Finset.sum_filter]
  refine Fintype.sum_equiv idxEquiv1 _ _ (fun j => ?_)
  rw [hot_eq _ _ (by have := g.isLt; omega), mul_one]
  exact if_congr (cnt_lands bat j g) Ideal.ofBits_one_f32 rfl

theorem pool_sum_ref (x : FVec Ideal S100000x128 .f32) (bat : IVec S100000 32) (g : Fin 2000) (c : Fin 128) :
    rSums x bat (ix2 g c) = ∑ n : Fin 100000, Spec.hot (bat (ix1 n)) g.val * x (ix2 n c) := by
  show Ideal.hostScatterAdd dSum _ (rBat bat) x (ix2 g c) = _
  unfold Ideal.hostScatterAdd
  rw [bzero_apply, zero_add, Finset.sum_filter, sum_idx2]
  refine Finset.sum_congr rfl fun n _ => ?_
  have e : ∀ b : Fin 128, dSum.resultIdx? (ix2 n b) (rBat bat) = some (ix2 g c) ↔ b = c ∧ (bat (ix1 n)).toInt = (g.val : ℤ) :=
    fun b => rBat_apply bat n ▸ sum_lands (rBat bat) (ix2 n b) (ix2 g c)
  simp only [e, ite_and, Finset.sum_ite_eq', Finset.mem_univ, if_true, hot_eq _ _ (show g.val < 2048 by have := g.isLt; omega),
    ite_mul, one_mul, zero_mul]

theorem pool_cut {m : ℕ} (f : (⟨2, ![2048, m]⟩ : Shape).Idx → EReal) (h : (⟨2, ![2048, m]⟩ : Shape).Slices ![0, 0] ⟨2, ![2000, m]⟩)
    (g : Fin 2000) (c : Fin m) :
    extractStridedSlice ⟨2, ![2000, m]⟩ ![0, 0] f h (ix2 g c) = f (ix2 (⟨g.val, by omega⟩ : Fin 2048) c) :=
  extractStridedSlice_apply _ _ _ (ix2 g c) _ (fun a => match a with
    | ⟨0, _⟩ => (Nat.zero_add _).symm
    | ⟨1, _⟩ => (Nat.zero_add _).symm)

private theorem bcast_col {m : ℕ} (h : (⟨2, ![2000, 1]⟩ : Shape).BroadcastsInDim ⟨2, ![2000, m]⟩ ![0, 1])
    (v : (⟨2, ![2000, 1]⟩ : Shape).Idx → EReal) (g : Fin 2000) (c : Fin m) :
    broadcastInDim ⟨2, ![2000, m]⟩ ![0, 1] h v (ix2 g c) = v (ix2 g 0) :=
  broadcastInDim_apply _ _ _ (ix2 g c) (ix2 g 0) (fun a => match a with
    | ⟨0, _⟩ => by show g.val = if (2000 : Nat) = 1 then 0 else g.val; rw [if_neg (by decide)]
    | ⟨1, _⟩ => by show (0 : Nat) = if (1 : Nat) = 1 then 0 else c.val; rw [if_pos rfl])

-- Both sides divide the same sum over the nodes by the larger of the same count and one.
theorem bridge_pool (x : FVec Ideal S100000x128 .f32) (bat : IVec S100000 32) :
    Host.divf
        (extractStridedSlice KernelIdeal.S2000x128 ![0, 0]
          (Spec.poolSums x (shapeCast KernelIdeal.S100000x1 bat KernelIdeal.Facts₀.shapeCasts_S100000_S100000x1))
          KernelIdeal.Facts₀.slices_S2048x128_S2000x128_0_0)
        (broadcastInDim KernelIdeal.S2000x128 ![0, 1] KernelIdeal.Facts₀.bcast_S2000x1_S2000x128_0_1
          (maximumf
            (extractStridedSlice KernelIdeal.S2000x1 ![0, 0]
              (Spec.poolCounts (shapeCast KernelIdeal.S100000x1 bat KernelIdeal.Facts₀.shapeCasts_S100000_S100000x1))
              KernelIdeal.Facts₀.slices_S2048x1_S2000x1_0_0)
            (broadcastInDim KernelIdeal.S2000x1 ![] KernelIdeal.Facts₀.bcast_S_S2000x1
              (constant KernelIdeal.S_ .f32 0x3F800000#32))))
      = rTail x bat := by
  funext i
  obtain ⟨g, c, rfl⟩ : ∃ (g : Fin 2000) (c : Fin 128), i = ix2 g c := ⟨i 0, i 1, eq_ix2 i⟩
  unfold rTail
  rw [hostDivf_apply, hostDivf_apply, pool_cut, pool_sum_ref, bcast_col, bcast_col, col1_apply, maximumf_apply, maximumf_apply,
    pool_cut, pool_cnt_ref]
  unfold Spec.poolSums Spec.poolCounts
  simp only [col_apply]
  rfl

end Cert.Proof.Bridge

end
-- ==== Proof.Bridge.lean ====
import proofs.«429188_j41669772706622_1_alg».proof.Proof.Bridge.Pool
import Idealize.ShloMosaic.Lib.Affine
import Idealize.ShloMosaic.Lib.StackMember

noncomputable section

namespace Cert.Proof.Bridge

open Idealize.ShloMosaic Idealize.ShloMosaic.ValueIdx Cert.ReferenceIdeal Cert.ReferenceIdeal.Gen Cert.ReferenceIdeal.HandRef

variable [KernelIdeal.Facts₀]

private abbrev dEmb := gather_S128x128_S100000x1_S100000x128_1_0_n_n_0_1_1128

-- The row axis is collapsed and starts at the index read signed and clamped; the column axis is the window's own.
private theorem gather_rows_apply (emb : FVec Ideal S128x128 .f32) (idx : IVec S100000x1 32) (j : S100000x128.Idx) :
    Host.gather dEmb emb idx j = emb (ix2 (⟨min (idx (ix2 (j 0) 0)).toInt.toNat 127, by omega⟩ : Fin 128) (j 1)) := by
  unfold Host.gather
  congr 1
  funext a
  refine Fin.ext ?_
  match a with
  | ⟨0, _⟩ =>
    show GatherDims.start _ j idx 0 + GatherDims.batchCoord _ j 0 + GatherDims.offCoord _ j 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ dEmb.startIndexMap from List.mem_singleton.mpr rfl)]
    exact congrArg (fun k => min (idx k).toInt.toNat 127) (funext fun b => Fin.ext (match b with | ⟨0, _⟩ => rfl | ⟨1, _⟩ => rfl))
  | ⟨1, _⟩ =>
    show GatherDims.start _ j idx 1 + GatherDims.batchCoord _ j 1 + GatherDims.offCoord _ j 1 = (j 1).val
    rw [GatherDims.batchCoord_eq_zero _ _ _ List.not_mem_nil]
    unfold GatherDims.start GatherDims.offCoord
    rw [dif_neg (by decide : (1 : Fin 2) ∉ dEmb.startIndexMap),
      dif_pos ((GatherDims.mem_sKept _ _).mpr ⟨(by decide : (1 : Fin 2) ∉ [(0 : Fin 2)]), List.not_mem_nil⟩)]
    exact Nat.zero_add _

-- The wrap is the branch of a negative token.
private theorem rTok_apply (tok : IVec S100000 32) (n : Fin 100000) (h0 : 0 ≤ (tok (ix1 n)).toInt) :
    rTok tok (ix2 n 0) = tok (ix1 n) := by
  refine (rBat_apply _ n).trans ?_
  have hcmp : IntOp.cmpi .slt (tok (ix1 n)) 0#32 = 0#1 :=
    eq_zero_of_ne_one fun h => by
      have := IntOp.cmpi_slt.1 h
      rw [BitVec.toInt_zero] at this
      omega
  show Scalar.select (IntOp.cmpi .slt (tok (ix1 n)) 0#32) (IntOp.addi (tok (ix1 n)) 128#32) (tok (ix1 n)) = _
  rw [hcmp, select_zero]

-- A one-hot row times the table is the table's row at the token, which is the row the lookup reads when the token is in range.
theorem bridge_emb (tok : IVec S100000 32) (htok : ∀ n, 0 ≤ (tok n).toInt ∧ (tok n).toInt < 128) (emb : FVec Ideal S128x128 .f32) :
    Spec.embArr (shapeCast KernelIdeal.S100000x1 tok KernelIdeal.Facts₀.shapeCasts_S100000_S100000x1) emb = rEmb tok emb := by
  funext j
  obtain ⟨h0, h1⟩ := htok (ix1 (j 0))
  have hlt : (tok (ix1 (j 0))).toInt.toNat < 128 := by omega
  trans emb (ix2 (⟨_, hlt⟩ : Fin 128) (j 1))
  · unfold Spec.embArr
    rw [col_apply tok (j 0)]
    refine (Finset.sum_eq_single_of_mem (⟨_, hlt⟩ : Fin 128) (Finset.mem_univ _) fun k _ hk => ?_).trans ?_
    · rw [hot_eq _ _ (by have := k.isLt; omega), if_neg (fun e => hk (Fin.ext (by show k.val = Int.toNat _; omega))), zero_mul]
    · rw [hot_eq _ _ (by show Int.toNat _ < 2048; omega), if_pos (by show _ = ((Int.toNat _ : ℕ) : ℤ); omega), one_mul]
  · unfold rEmb
    rw [gather_rows_apply]
    refine congrArg (fun r : Fin 128 => emb (ix2 r (j 1))) (Fin.ext ?_)
    show Int.toNat _ = min (BitVec.toInt _).toNat 127
    rw [rTok_apply tok (j 0) h0]
    omega

private theorem rRows_apply (b : FVec Ideal S128 .f32) (n : Fin 100000) (k : Fin 128) : rRows b (ix2 n k) = b (ix1 k) := by
  refine (broadcastInDim_apply _ _ _ (ix2 n k) (ix2 0 k) (fun a => match a with
    | ⟨0, _⟩ => by show (0 : Nat) = if (1 : Nat) = 1 then 0 else n.val; rw [if_pos rfl]
    | ⟨1, _⟩ => by show k.val = if (128 : Nat) = 1 then 0 else k.val; rw [if_neg (by decide)])).trans ?_
  exact broadcastInDim_apply _ _ _ (ix2 0 k) (ix1 k) (fun a => match a with
    | ⟨0, _⟩ => by show k.val = if (128 : Nat) = 1 then 0 else k.val; rw [if_neg (by decide)])

private theorem dot_rows_apply (l : FVec Ideal S100000x128 .f32) (r : FVec Ideal S128x128 .f32) (a : Fin 100000) (b : Fin 128) :
    Host.dotGeneral dot_S100000x128_S128x128_S100000x128_1_0_0_1_n_n none l r (ix2 a b) = ∑ c : Fin 128, l (ix2 a c) * r (ix2 c b) :=
  StackMember.dotGeneral_plain_apply (m := 100000) (n := 128) (k := 128) none l r a b

private theorem row_apply (b : FVec Ideal S128 .f32) (k : Fin 128) :
    shapeCast KernelIdeal.S1x128 b KernelIdeal.Facts₀.shapeCasts_S128_S1x128 (ix2 0 k) = b (ix1 k) :=
  shapeCast_apply b _ (ix2 0 k) (ix1 k)
    (by rw [Shape.rowMajor_val_one, Shape.rowMajor_val_two]; show k.val = 0 * 128 + k.val; omega)

-- Both sides are the same sums, biases and maxima, entry by entry.
theorem bridge_mlp (x agg : FVec Ideal S100000x128 .f32) (w1 w2 : FVec Ideal S128x128 .f32) (b1 b2 : FVec Ideal S128 .f32) :
    Spec.mlpArr x agg w1 (shapeCast KernelIdeal.S1x128 b1 KernelIdeal.Facts₀.shapeCasts_S128_S1x128) w2
        (shapeCast KernelIdeal.S1x128 b2 KernelIdeal.Facts₀.shapeCasts_S128_S1x128)
      = rMlp x agg w1 (rRows b1) w2 (rRows b2) := by
  funext j
  obtain ⟨a, b, rfl⟩ : ∃ (a : Fin 100000) (b : Fin 128), j = ix2 a b := ⟨j 0, j 1, eq_ix2 j⟩
  have e0 : ∀ (a : Fin 100000) (b : Fin 128), (ix2 a b : S100000x128.Idx) 0 = a := fun _ _ => rfl
  have e1 : ∀ (a : Fin 100000) (b : Fin 128), (ix2 a b : S100000x128.Idx) 1 = b := fun _ _ => rfl
  unfold Spec.mlpArr rMlp rRelu rZero
  simp only [e0, e1, maximumf_apply, addf_apply, dot_rows_apply, row_apply]
  rw [bzero_apply, rRows_apply]
  refine congrArg (fun s : EReal => max (s + b2 (ix1 b)) 0) (Finset.sum_congr rfl fun k _ => ?_)
  rw [bzero_apply, rRows_apply]

end Cert.Proof.Bridge

end
-- ==== Proof.NetEq.lean ====
import proofs.«429188_j41669772706622_1_alg».proof.Proof.Val.Kernel
import proofs.«429188_j41669772706622_1_alg».proof.Proof.Bridge

noncomputable section

namespace Cert.Proof.Net

open Idealize.ShloMosaic
open Cert.KernelIdeal.HandVal Cert.ReferenceIdeal.HandRef Cert.Proof.Bridge

-- The two networks are the same pieces in the same order: the embedding, six layers that differ only in the cut of the weights, the pool.
theorem net_eq (a0 : IVec ReferenceIdeal.S100000 32) (a1 : IVec ReferenceIdeal.S2x600000 32)
    (a2 : IVec ReferenceIdeal.S100000 32) (a3 : FVec Ideal ReferenceIdeal.S128x128 .f32)
    (a4 : FVec Ideal ReferenceIdeal.S6x128x128 .f32) (a5 : FVec Ideal ReferenceIdeal.S6x128 .f32)
    (a6 : FVec Ideal ReferenceIdeal.S6x128x128 .f32) (a7 : FVec Ideal ReferenceIdeal.S6x128 .f32)
    (hrange : ∀ n : ReferenceIdeal.S100000.Idx, 0 ≤ (a0 n).toInt ∧ (a0 n).toInt < 128) :
    kernelNet a0 a1 a2 a3 a4 a5 a6 a7 = refNet (F := Ideal) a0 a1 a2 a3 a4 a5 a6 a7 := by
  have L (l : ℕ) (hK4 : KernelIdeal.S6x128x128.Slices ![l, 0, 0] KernelIdeal.S1x128x128)
      (hK5 : KernelIdeal.S6x128.Slices ![l, 0] KernelIdeal.S1x128) (hR4 hR5) (x : FVec Ideal ReferenceIdeal.S100000x128 .f32) :
      Cert.Spec.mlpArr x (kAgg (F := Ideal) x a1) (kMat (F := Ideal) ![l, 0, 0] hK4 a4) (kRow (F := Ideal) ![l, 0] hK5 a5)
          (kMat (F := Ideal) ![l, 0, 0] hK4 a6) (kRow (F := Ideal) ![l, 0] hK5 a7)
        = rLayer (F := Ideal) l hR4 hR5 x a1 a4 a5 a6 a7 :=
    bridge_mlp x (rAgg x a1) (rMat l a4 hR4) (rMat l a6 hR4) (rVec l a5 hR5) (rVec l a7 hR5)
  exact (bridge_pool _ a2).trans <| congrArg (rTail · a2) <|
    (L 5 _ _ _ _ _).trans <| congrArg (rLayer 5 _ _ · a1 a4 a5 a6 a7) <|
    (L 4 _ _ _ _ _).trans <| congrArg (rLayer 4 _ _ · a1 a4 a5 a6 a7) <|
    (L 3 _ _ _ _ _).trans <| congrArg (rLayer 3 _ _ · a1 a4 a5 a6 a7) <|
    (L 2 _ _ _ _ _).trans <| congrArg (rLayer 2 _ _ · a1 a4 a5 a6 a7) <|
    (L 1 _ _ _ _ _).trans <| congrArg (rLayer 1 _ _ · a1 a4 a5 a6 a7) <|
    (L 0 _ _ _ _ _).trans <| congrArg (rLayer 0 _ _ · a1 a4 a5 a6 a7) (bridge_emb a0 hrange a3)

end Cert.Proof.Net

end
-- ==== Proof.lean ====
import proofs.«429188_j41669772706622_1_alg».proof.Defs
import proofs.«429188_j41669772706622_1_alg».proof.Proof.Gen.Kernel
import proofs.«429188_j41669772706622_1_alg».proof.Proof.Gen.KernelIdeal
import proofs.«429188_j41669772706622_1_alg».proof.Proof.Gen.ReferenceIdeal
import proofs.«429188_j41669772706622_1_alg».proof.Proof.Gen.Pre_finite_inputs
import proofs.«429188_j41669772706622_1_alg».proof.Proof.K.Run
import proofs.«429188_j41669772706622_1_alg».proof.Proof.KI.Run
import proofs.«429188_j41669772706622_1_alg».proof.Proof.Ref
import proofs.«429188_j41669772706622_1_alg».proof.Proof.Pre
import proofs.«429188_j41669772706622_1_alg».proof.Proof.Val.KernelRun
import proofs.«429188_j41669772706622_1_alg».proof.Proof.NetEq

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := Cert.ReferenceIdeal.HandRef.ref_frame

theorem preserves : Cert.preserves_Kernel_KernelIdeal := trivial

-- Both results are the reference's network of the arguments: the kernel's because every token is in range, and the arguments agree.
theorem algebraic : Cert.algebraic_KernelIdeal_ReferenceIdeal := by
  intro m ρ m' ρ' hpre hagree
  refine ⟨Cert.ReferenceIdeal.ValueP.res_main_v196 (F := Ideal) m', ?_,
    (θ_run Cert.ReferenceIdeal.defs _ _).mono (fun _ h => h) (Cert.ReferenceIdeal.ValueP.run (F := Ideal) m' ρ')⟩
  refine (θ_run Cert.KernelIdeal.defs _ _).mono (fun r h c => ?_) (Cert.KernelIdeal.Hand.run_all m ρ)
  have A := fun b hu hb => (h c _ (Cert.KernelIdeal.Hand.mem_uc b hu)).trans (Cert.KernelIdeal.Hand.W17_arg m ρ c b hb)
  refine ⟨((h c _ (Cert.KernelIdeal.Hand.mem_uc Cert.KernelIdeal.main_v139 (by decide))).trans (Cert.KernelIdeal.HandVal.kernel_out m ρ c)).trans
        ((Cert.Proof.Net.net_eq _ _ _ _ _ _ _ _ (Cert.Proof.Pre.tok_range_mem m hpre c)).trans ?_),
      A Cert.KernelIdeal.main_arg0 (by decide) (by decide), A Cert.KernelIdeal.main_arg1 (by decide) (by decide),
      A Cert.KernelIdeal.main_arg2 (by decide) (by decide), A Cert.KernelIdeal.main_arg3 (by decide) (by decide),
      A Cert.KernelIdeal.main_arg4 (by decide) (by decide), A Cert.KernelIdeal.main_arg5 (by decide) (by decide),
      A Cert.KernelIdeal.main_arg6 (by decide) (by decide), A Cert.KernelIdeal.main_arg7 (by decide) (by decide)⟩
  rw [Cert.ReferenceIdeal.HandRef.ref_out, (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
